-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn_part1 {F : FTy → Type} [FloatOps F] (main_v10 : IVec S_ 1) (main_v15 : IVec S4096x2048 1) (main_c_5 : IVec S_ 1) : IVec S_ 1 :=
  let main_v16 : IVec S_ 1 := (fun x v => Host.reduce IntOp.andi x v reducesTo_S4096x2048_S_d0_1 h_S_) main_v15 main_c_5
  let main_v17 : IVec S_ 1 := andi main_v10 main_v16
  main_v17

def fn {F : FTy → Type} [FloatOps F] (main_arg0 : FVec F S4096x2048 .f32) (main_arg1 : IVec S4096x2048 32) (main_arg2 : IVec S4096x2048 32) (main_arg3 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_c_0 : IVec S_ 32 := constantI S_ 32 0#32
  let main_v4 : IVec S4096x2048 32 := broadcastInDim S4096x2048 ![] bcast_S_S4096x2048 main_c_0
  let main_v5 : IVec S4096x2048 1 := cmpi .sge main_arg1 main_v4
  let main_c_1 : IVec S_ 32 := constantI S_ 32 100#32
  let main_v6 : IVec S4096x2048 32 := broadcastInDim S4096x2048 ![] bcast_S_S4096x2048 main_c_1
  let main_v7 : IVec S4096x2048 1 := cmpi .slt main_arg1 main_v6
  let main_v8 : IVec S4096x2048 1 := andi main_v5 main_v7
  let main_c_2 : IVec S_ 1 := constantI S_ 1 1#1
  let main_v9 : IVec S_ 1 := (fun x v => Host.reduce IntOp.andi x v reducesTo_S4096x2048_S_d0_1 h_S_) main_v8 main_c_2
  let main_v10 : IVec S_ 1 := andi main_v3 main_v9
  let main_c_3 : IVec S_ 32 := constantI S_ 32 0#32
  let main_v11 : IVec S4096x2048 32 := broadcastInDim S4096x2048 ![] bcast_S_S4096x2048 main_c_3
  let main_v12 : IVec S4096x2048 1 := cmpi .sge main_arg2 main_v11
  let main_c_4 : IVec S_ 32 := constantI S_ 32 50#32
  let main_v13 : IVec S4096x2048 32 := broadcastInDim S4096x2048 ![] bcast_S_S4096x2048 main_c_4
  let main_v14 : IVec S4096x2048 1 := cmpi .slt main_arg2 main_v13
  let main_v15 : IVec S4096x2048 1 := andi main_v12 main_v14
  let main_c_5 : IVec S_ 1 := constantI S_ 1 1#1
  fn_part1 (F := F) main_v10 main_v15 main_c_5
-- ==== Kernel.lean ====
abbrev S4096x2048 : Shape := ⟨2, ![4096, 2048]⟩
abbrev S4096 : Shape := ⟨1, ![4096]⟩
abbrev S4096x1 : Shape := ⟨2, ![4096, 1]⟩
abbrev S4096x128 : Shape := ⟨2, ![4096, 128]⟩
abbrev S128x512 : Shape := ⟨2, ![128, 512]⟩
abbrev S128x1 : Shape := ⟨2, ![128, 1]⟩
abbrev S128x128 : Shape := ⟨2, ![128, 128]⟩
abbrev S128 : Shape := ⟨1, ![128]⟩
abbrev S128x100 : Shape := ⟨2, ![128, 100]⟩
abbrev S128x32x100 : Shape := ⟨3, ![128, 32, 100]⟩
abbrev S128x32 : Shape := ⟨2, ![128, 32]⟩
abbrev S128x32x1 : Shape := ⟨3, ![128, 32, 1]⟩
abbrev S128x50 : Shape := ⟨2, ![128, 50]⟩
abbrev S128x32x50 : Shape := ⟨3, ![128, 32, 50]⟩
abbrev S4096x100 : Shape := ⟨2, ![4096, 100]⟩
abbrev S4096x50 : Shape := ⟨2, ![4096, 50]⟩
abbrev S_ : Shape := ⟨0, ![]⟩
abbrev S100 : Shape := ⟨1, ![100]⟩
abbrev S1x100 : Shape := ⟨2, ![1, 100]⟩
abbrev S50 : Shape := ⟨1, ![50]⟩
abbrev S1x50 : Shape := ⟨2, ![1, 50]⟩
abbrev S4096x456 : Shape := ⟨2, ![4096, 456]⟩

abbrev nBuf : Space → Nat
  | .hbm => 134
  | .vmem => 22
  | .smem => 0
  | _ => 0

abbrev hbmTy0_0 (i : Nat) : BufTy := match i % 128 with
  | 0 => ⟨S4096x2048, .f32⟩
  | 1 => ⟨S4096x2048, .i32⟩
  | 2 => ⟨S4096x2048, .i32⟩
  | 3 => ⟨S4096, .i32⟩
  | 4 => ⟨S4096x1, .f32⟩
  | 5 => ⟨S4096x1, .f32⟩
  | 6 => ⟨S4096x128, .f32⟩
  | 7 => ⟨S4096x128, .f32⟩
  | 8 => ⟨S4096x128, .f32⟩
  | 9 => ⟨S4096x128, .f32⟩
  | 10 => ⟨S4096x128, .f32⟩
  | 11 => ⟨S4096x128, .f32⟩
  | 12 => ⟨S4096x100, .f32⟩
  | 13 => ⟨S4096x100, .f32⟩
  | 14 => ⟨S4096x100, .f32⟩
  | 15 => ⟨S4096x50, .f32⟩
  | 16 => ⟨S4096x50, .f32⟩
  | 17 => ⟨S4096x50, .f32⟩
  | 18 => ⟨S4096, .f32⟩
  | 19 => ⟨S4096, .f32⟩
  | 20 => ⟨S4096, .f32⟩
  | 21 => ⟨S_, .f32⟩
  | 22 => ⟨S4096, .f32⟩
  | 23 => ⟨S4096, .f32⟩
  | 24 => ⟨S4096, .f32⟩
  | 25 => ⟨S4096, .f32⟩
  | 26 => ⟨S_, .f32⟩
  | 27 => ⟨S4096, .f32⟩
  | 28 => ⟨S4096, .f32⟩
  | 29 => ⟨S4096, .f32⟩
  | 30 => ⟨S4096, .f32⟩
  | 31 => ⟨S_, .f32⟩
  | 32 => ⟨S_, .f32⟩
  | 33 => ⟨S4096, .f32⟩
  | 34 => ⟨S4096, .f32⟩
  | 35 => ⟨S_, .f32⟩
  | 36 => ⟨S4096, .f32⟩
  | 37 => ⟨S4096, .f32⟩
  | 38 => ⟨S_, .f32⟩
  | 39 => ⟨S_, .f32⟩
  | 40 => ⟨S4096, .f32⟩
  | 41 => ⟨S4096, .f32⟩
  | 42 => ⟨S_, .f32⟩
  | 43 => ⟨S4096, .f32⟩
  | 44 => ⟨S4096, .f32⟩
  | 45 => ⟨S4096, .f32⟩
  | 46 => ⟨S4096, .f32⟩
  | 47 => ⟨S4096x1, .f32⟩
  | 48 => ⟨S4096x1, .f32⟩
  | 49 => ⟨S4096x1, .f32⟩
  | 50 => ⟨S4096x1, .f32⟩
  | 51 => ⟨S100, .i32⟩
  | 52 => ⟨S_, .i32⟩
  | 53 => ⟨S100, .i32⟩
  | 54 => ⟨S100, .i1⟩
  | 55 => ⟨S100, .f32⟩
  | 56 => ⟨S1x100, .f32⟩
  | 57 => ⟨S4096x100, .f32⟩
  | 58 => ⟨S4096x100, .f32⟩
  | 59 => ⟨S_, .f32⟩
  | 60 => ⟨S4096x100, .f32⟩
  | 61 => ⟨S4096x100, .f32⟩
  | 62 => ⟨S4096x100, .f32⟩
  | 63 => ⟨S4096x100, .f32⟩
  | 64 => ⟨S_, .f32⟩
  | 65 => ⟨S4096x100, .f32⟩
  | 66 => ⟨S4096x100, .f32⟩
  | 67 => ⟨S4096x100, .f32⟩
  | 68 => ⟨S4096x100, .f32⟩
  | 69 => ⟨S_, .f32⟩
  | 70 => ⟨S_, .f32⟩
  | 71 => ⟨S4096x100, .f32⟩
  | 72 => ⟨S4096x100, .f32⟩
  | 73 => ⟨S_, .f32⟩
  | 74 => ⟨S4096x100, .f32⟩
  | 75 => ⟨S4096x100, .f32⟩
  | 76 => ⟨S_, .f32⟩
  | 77 => ⟨S_, .f32⟩
  | 78 => ⟨S4096x100, .f32⟩
  | 79 => ⟨S4096x100, .f32⟩
  | 80 => ⟨S_, .f32⟩
  | 81 => ⟨S4096x100, .f32⟩
  | 82 => ⟨S4096x100, .f32⟩
  | 83 => ⟨S4096x100, .f32⟩
  | 84 => ⟨S4096x100, .f32⟩
  | 85 => ⟨S_, .f32⟩
  | 86 => ⟨S4096x100, .f32⟩
  | 87 => ⟨S4096x100, .i1⟩
  | 88 => ⟨S4096x100, .f32⟩
  | 89 => ⟨S_, .f32⟩
  | 90 => ⟨S4096, .f32⟩
  | 91 => ⟨S4096x1, .f32⟩
  | 92 => ⟨S50, .i32⟩
  | 93 => ⟨S_, .i32⟩
  | 94 => ⟨S50, .i32⟩
  | 95 => ⟨S50, .i1⟩
  | 96 => ⟨S50, .f32⟩
  | 97 => ⟨S1x50, .f32⟩
  | 98 => ⟨S4096x50, .f32⟩
  | 99 => ⟨S4096x50, .f32⟩
  | 100 => ⟨S_, .f32⟩
  | 101 => ⟨S4096x50, .f32⟩
  | 102 => ⟨S4096x50, .f32⟩
  | 103 => ⟨S4096x50, .f32⟩
  | 104 => ⟨S4096x50, .f32⟩
  | 105 => ⟨S_, .f32⟩
  | 106 => ⟨S4096x50, .f32⟩
  | 107 => ⟨S4096x50, .f32⟩
  | 108 => ⟨S4096x50, .f32⟩
  | 109 => ⟨S4096x50, .f32⟩
  | 110 => ⟨S_, .f32⟩
  | 111 => ⟨S_, .f32⟩
  | 112 => ⟨S4096x50, .f32⟩
  | 113 => ⟨S4096x50, .f32⟩
  | 114 => ⟨S_, .f32⟩
  | 115 => ⟨S4096x50, .f32⟩
  | 116 => ⟨S4096x50, .f32⟩
  | 117 => ⟨S_, .f32⟩
  | 118 => ⟨S_, .f32⟩
  | 119 => ⟨S4096x50, .f32⟩
  | 120 => ⟨S4096x50, .f32⟩
  | 121 => ⟨S_, .f32⟩
  | 122 => ⟨S4096x50, .f32⟩
  | 123 => ⟨S4096x50, .f32⟩
  | 124 => ⟨S4096x50, .f32⟩
  | 125 => ⟨S4096x50, .f32⟩
  | 126 => ⟨S_, .f32⟩
  | 127 => ⟨S4096x50, .f32⟩
  | _ => ⟨S4096x2048, .f32⟩

abbrev hbmTy0_1 (i : Nat) : BufTy := match i % 128 with
  | 0 => ⟨S4096x50, .i1⟩
  | 1 => ⟨S4096x50, .f32⟩
  | 2 => ⟨S_, .f32⟩
  | 3 => ⟨S4096, .f32⟩
  | 4 => ⟨S4096x1, .f32⟩
  | 5 => ⟨S4096x456, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S128x512, .i32⟩
  | .local _ .vmem, ⟨3, _⟩ => ⟨S128x512, .i32⟩
  | .local _ .vmem, ⟨4, _⟩ => ⟨S128x512, .i32⟩
  | .local _ .vmem, ⟨5, _⟩ => ⟨S128x512, .i32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_call2_v0 : Ref sig .tc := ⟨.hbm, 70, rfl⟩
abbrev main_call2_v1 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_v47 : Ref sig .tc := ⟨.hbm, 75, rfl⟩
abbrev main_cst_9 : Ref sig .tc := ⟨.hbm, 76, rfl⟩
abbrev main_call3_v0 : Ref sig .tc := ⟨.hbm, 77, rfl⟩
abbrev main_call3_v1 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_13 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_15 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_16 : Ref sig .tc := ⟨.hbm, 110, rfl⟩
abbrev main_call4_v0 : Ref sig .tc := ⟨.hbm, 111, rfl⟩
abbrev main_call4_v1 : Ref sig .tc := ⟨.hbm, 112, rfl⟩
abbrev main_v73 : Ref sig .tc := ⟨.hbm, 113, rfl⟩
abbrev main_cst_17 : Ref sig .tc := ⟨.hbm, 114, rfl⟩
abbrev main_v74 : Ref sig .tc := ⟨.hbm, 115, rfl⟩
abbrev main_v75 : Ref sig .tc := ⟨.hbm, 116, rfl⟩
abbrev main_cst_18 : Ref sig .tc := ⟨.hbm, 117, rfl⟩
abbrev main_call5_v0 : Ref sig .tc := ⟨.hbm, 118, rfl⟩
abbrev main_call5_v1 : Ref sig .tc := ⟨.hbm, 119, rfl⟩
abbrev main_v76 : Ref sig .tc := ⟨.hbm, 120, rfl⟩
abbrev main_cst_19 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_20 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_21 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  inb_S128x1_S128x1_0_0 : ∀ a, (![0, 0] : Fin 2 → Nat) a + S128x1.size a ≤ S128x1.size a
  h_S128x1 : 0 < S128x1.numel
  inb_S128x128_S128x128_0_0 : ∀ a, (![0, 0] : Fin 2 → Nat) a + S128x128.size a ≤ S128x128.size a
  h_S128x128 : 0 < S128x128.numel
  inb_S128x512_S128x512_0_0 : ∀ a, (![0, 0] : Fin 2 → Nat) a + S128x512.size a ≤ S128x512.size a
  h_S128x512 : 0 < S128x512.numel
  shapeCasts_S128x1_S128x1 : S128x1.ShapeCasts S128x1
  reduces_S128x512_S128 : S128x512.Reduces [1] S128
  shapeCasts_S128_S128x1 : S128.ShapeCasts S128x1
  iota_S128x32x100_d2_w32 : S128x32x100.Iotas .tc 32 [2]
  slices_S128x512_o0_0_S128x32 : S128x512.Slices ![0, 0] S128x32
  shapeCasts_S128x32_S128x32x1 : S128x32.ShapeCasts S128x32x1
  broadcasts_S128x32x1_S128x32x100 : S128x32x1.Broadcasts S128x32x100
  reduces_S128x32x100_S128x100 : S128x32x100.Reduces [1] S128x100
  shapeCasts_S128x32x1_S128x32x1 : S128x32x1.ShapeCasts S128x32x1
  slices_S128x512_o0_32_S128x32 : S128x512.Slices ![0, 32] S128x32
  slices_S128x512_o0_64_S128x32 : S128x512.Slices ![0, 64] S128x32
  slices_S128x512_o0_96_S128x32 : S128x512.Slices ![0, 96] S128x32
  slices_S128x512_o0_128_S128x32 : S128x512.Slices ![0, 128] S128x32
  slices_S128x512_o0_160_S128x32 : S128x512.Slices ![0, 160] S128x32
  slices_S128x512_o0_192_S128x32 : S128x512.Slices ![0, 192] S128x32
  slices_S128x512_o0_224_S128x32 : S128x512.Slices ![0, 224] S128x32
  slices_S128x512_o0_256_S128x32 : S128x512.Slices ![0, 256] S128x32
  slices_S128x512_o0_288_S128x32 : S128x512.Slices ![0, 288] S128x32
  slices_S128x512_o0_320_S128x32 : S128x512.Slices ![0, 320] S128x32
  slices_S128x512_o0_352_S128x32 : S128x512.Slices ![0, 352] S128x32
  slices_S128x512_o0_384_S128x32 : S128x512.Slices ![0, 384] S128x32
  slices_S128x512_o0_416_S128x32 : S128x512.Slices ![0, 416] S128x32
  slices_S128x512_o0_448_S128x32 : S128x512.Slices ![0, 448] S128x32
  slices_S128x512_o0_480_S128x32 : S128x512.Slices ![0, 480] S128x32
  inb_S128x128_S128x100_0_0 : ∀ a, (![0, 0] : Fin 2 → Nat) a + S128x100.size a ≤ S128x128.size a
  h_S128x100 : 0 < S128x100.numel
  shapeCasts_S128x100_S128x100 : S128x100.ShapeCasts S128x100
  iota_S128x32x50_d2_w32 : S128x32x50.Iotas .tc 32 [2]
  broadcasts_S128x32x1_S128x32x50 : S128x32x1.Broadcasts S128x32x50
  reduces_S128x32x50_S128x50 : S128x32x50.Reduces [1] S128x50
  inb_S128x128_S128x50_0_0 : ∀ a, (![0, 0] : Fin 2 → Nat) a + S128x50.size a ≤ S128x128.size a
  h_S128x50 : 0 < S128x50.numel
  shapeCasts_S128x50_S128x50 : S128x50.ShapeCasts S128x50
  slices_S4096x128_S4096x100_0_0 : S4096x128.Slices ![0, 0] S4096x100
  slices_S4096x128_S4096x50_0_0 : S4096x128.Slices ![0, 0] S4096x50
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S100 : S_.BroadcastsInDim S100 (![] : Fin 0 → Fin S100.rank)
  bcast_S100_S1x100_1 : S100.BroadcastsInDim S1x100 (![1] : Fin 1 → Fin S1x100.rank)
  bcast_S1x100_S4096x100_0_1 : S1x100.BroadcastsInDim S4096x100 (![0, 1] : Fin 2 → Fin S4096x100.rank)
  bcast_S_S4096x100 : S_.BroadcastsInDim S4096x100 (![] : Fin 0 → Fin S4096x100.rank)
  reducesTo_S4096x100_S4096_d1 : S4096x100.ReducesTo [1] S4096
  h_S_ : 0 < S_.numel
  bcast_S_S50 : S_.BroadcastsInDim S50 (![] : Fin 0 → Fin S50.rank)
  bcast_S50_S1x50_1 : S50.BroadcastsInDim S1x50 (![1] : Fin 1 → Fin S1x50.rank)
  bcast_S1x50_S4096x50_0_1 : S1x50.BroadcastsInDim S4096x50 (![0, 1] : Fin 2 → Fin S4096x50.rank)
  bcast_S_S4096x50 : S_.BroadcastsInDim S4096x50 (![] : Fin 0 → Fin S4096x50.rank)
  reducesTo_S4096x50_S4096_d1 : S4096x50.ReducesTo [1] S4096
  concatenates_S4096x1_S4096x1_S4096x1_S4096x1_S4096x100_S4096x100_S4096x100_S4096x50_S4096x50_S4096x50_S4096x1_S4096x1_S4096x456_d1 : Shape.Concatenates [S4096x1, S4096x1, S4096x1, S4096x1, S4096x100, S4096x100, S4096x100, S4096x50, S4096x50, S4096x50, S4096x1, S4096x1] S4096x456 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x2048.size a
  hwx0_0 : ∀ i : grid0.Coords, EltTy.bits .f32 = 32 ∨ (Rect.block (s := S4096x2048) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S4096x2048.size a
  hwx0_1 : ∀ i : grid0.Coords, EltTy.bits .i32 = 32 ∨ (Rect.block (s := S4096x2048) S128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S4096x2048.size a
  hwx0_2 : ∀ i : grid0.Coords, EltTy.bits .i32 = 32 ∨ (Rect.block (s := S4096x2048) S128x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S4096x1.size a
  hwx0_3 : ∀ i : grid0.Coords, EltTy.bits .f32 = 32 ∨ (Rect.block (s := S4096x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S4096x1.size a
  hwx0_4 : ∀ i : grid0.Coords, EltTy.bits .f32 = 32 ∨ (Rect.block (s := S4096x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S4096x128.size a
  hwx0_5 : ∀ i : grid0.Coords, EltTy.bits .f32 = 32 ∨ (Rect.block (s := S4096x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S4096x128.size a
  hwx0_6 : ∀ i : grid0.Coords, EltTy.bits .f32 = 32 ∨ (Rect.block (s := S4096x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S4096x128.size a
  hwx0_7 : ∀ i : grid0.Coords, EltTy.bits .f32 = 32 ∨ (Rect.block (s := S4096x128) S128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S4096x128.size a
  hwx0_8 : ∀ i : grid0.Coords, EltTy.bits .f32 = 32 ∨ (Rect.block (s := S4096x128) S128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S4096x128.size a
  hwx0_9 : ∀ i : grid0.Coords, EltTy.bits .f32 = 32 ∨ (Rect.block (s := S4096x128) S128x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S4096x128.size a
  hwx0_10 : ∀ i : grid0.Coords, EltTy.bits .f32 = 32 ∨ (Rect.block (s := S4096x128) S128x128.size (cc0_transform_10 i) (hinb0_10 i)).WholeWords (EltTy.packing .f32)

variable [Facts₀]

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S128x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S128x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S128x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S128x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_5) S128x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_6) S128x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_7) S128x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096 : Shape := ⟨1, ![4096]⟩
abbrev S4096x1 : Shape := ⟨2, ![4096, 1]⟩
abbrev S_ : Shape := ⟨0, ![]⟩
abbrev S8388608 : Shape := ⟨1, ![8388608]⟩
abbrev S409600 : Shape := ⟨1, ![409600]⟩
abbrev S8388608x1 : Shape := ⟨2, ![8388608, 1]⟩
abbrev S4096x100 : Shape := ⟨2, ![4096, 100]⟩
abbrev S100 : Shape := ⟨1, ![100]⟩
abbrev S1x100 : Shape := ⟨2, ![1, 100]⟩
abbrev S204800 : Shape := ⟨1, ![204800]⟩
abbrev S4096x50 : Shape := ⟨2, ![4096, 50]⟩
abbrev S50 : Shape := ⟨1, ![50]⟩
abbrev S1x50 : Shape := ⟨2, ![1, 50]⟩
abbrev S4096x456 : Shape := ⟨2, ![4096, 456]⟩

abbrev nBuf : Space → Nat
  | .hbm => 213
  | .vmem => 0
  | .smem => 0
  | _ => 0

abbrev hbmTy0_0 (i : Nat) : BufTy := match i % 128 with
  | 0 => ⟨S4096x2048, .f32⟩
  | 1 => ⟨S4096x2048, .i32⟩
  | 2 => ⟨S4096x2048, .i32⟩
  | 3 => ⟨S4096, .i32⟩
  | 4 => ⟨S4096, .f32⟩
  | 5 => ⟨S4096x1, .f32⟩
  | 6 => ⟨S_, .f32⟩
  | 7 => ⟨S4096, .f32⟩
  | 8 => ⟨S_, .f32⟩
  | 9 => ⟨S4096, .f32⟩
  | 10 => ⟨S4096, .f32⟩
  | 11 => ⟨S4096, .f32⟩
  | 12 => ⟨S4096x2048, .f32⟩
  | 13 => ⟨S_, .f32⟩
  | 14 => ⟨S4096, .f32⟩
  | 15 => ⟨S4096, .f32⟩
  | 16 => ⟨S_, .f32⟩
  | 17 => ⟨S4096, .f32⟩
  | 18 => ⟨S4096, .f32⟩
  | 19 => ⟨S4096, .f32⟩
  | 20 => ⟨S4096, .f32⟩
  | 21 => ⟨S_, .f32⟩
  | 22 => ⟨S_, .f32⟩
  | 23 => ⟨S4096, .f32⟩
  | 24 => ⟨S4096, .f32⟩
  | 25 => ⟨S_, .f32⟩
  | 26 => ⟨S4096, .f32⟩
  | 27 => ⟨S4096, .f32⟩
  | 28 => ⟨S_, .f32⟩
  | 29 => ⟨S_, .f32⟩
  | 30 => ⟨S4096, .f32⟩
  | 31 => ⟨S4096, .f32⟩
  | 32 => ⟨S_, .f32⟩
  | 33 => ⟨S4096, .f32⟩
  | 34 => ⟨S4096, .f32⟩
  | 35 => ⟨S4096, .f32⟩
  | 36 => ⟨S4096, .f32⟩
  | 37 => ⟨S4096x1, .f32⟩
  | 38 => ⟨S4096x1, .f32⟩
  | 39 => ⟨S4096x1, .f32⟩
  | 40 => ⟨S4096, .i32⟩
  | 41 => ⟨S4096x1, .i32⟩
  | 42 => ⟨S_, .i32⟩
  | 43 => ⟨S4096x1, .i32⟩
  | 44 => ⟨S4096x1, .i32⟩
  | 45 => ⟨S4096x2048, .i32⟩
  | 46 => ⟨S4096x2048, .i32⟩
  | 47 => ⟨S8388608, .i32⟩
  | 48 => ⟨S_, .f32⟩
  | 49 => ⟨S409600, .f32⟩
  | 50 => ⟨S_, .i32⟩
  | 51 => ⟨S8388608, .i32⟩
  | 52 => ⟨S8388608, .i1⟩
  | 53 => ⟨S_, .i32⟩
  | 54 => ⟨S8388608, .i32⟩
  | 55 => ⟨S8388608, .i32⟩
  | 56 => ⟨S8388608, .i32⟩
  | 57 => ⟨S8388608x1, .i32⟩
  | 58 => ⟨S_, .f32⟩
  | 59 => ⟨S8388608, .f32⟩
  | 60 => ⟨S409600, .f32⟩
  | 61 => ⟨S4096x100, .f32⟩
  | 62 => ⟨S8388608, .f32⟩
  | 63 => ⟨S_, .i32⟩
  | 64 => ⟨S8388608, .i32⟩
  | 65 => ⟨S8388608, .i1⟩
  | 66 => ⟨S_, .i32⟩
  | 67 => ⟨S8388608, .i32⟩
  | 68 => ⟨S8388608, .i32⟩
  | 69 => ⟨S8388608, .i32⟩
  | 70 => ⟨S8388608x1, .i32⟩
  | 71 => ⟨S409600, .f32⟩
  | 72 => ⟨S4096x100, .f32⟩
  | 73 => ⟨S4096x2048, .f32⟩
  | 74 => ⟨S8388608, .f32⟩
  | 75 => ⟨S_, .i32⟩
  | 76 => ⟨S8388608, .i32⟩
  | 77 => ⟨S8388608, .i1⟩
  | 78 => ⟨S_, .i32⟩
  | 79 => ⟨S8388608, .i32⟩
  | 80 => ⟨S8388608, .i32⟩
  | 81 => ⟨S8388608, .i32⟩
  | 82 => ⟨S8388608x1, .i32⟩
  | 83 => ⟨S409600, .f32⟩
  | 84 => ⟨S4096x100, .f32⟩
  | 85 => ⟨S100, .i32⟩
  | 86 => ⟨S_, .i32⟩
  | 87 => ⟨S100, .i32⟩
  | 88 => ⟨S100, .i1⟩
  | 89 => ⟨S100, .f32⟩
  | 90 => ⟨S1x100, .f32⟩
  | 91 => ⟨S4096x100, .f32⟩
  | 92 => ⟨S4096x100, .f32⟩
  | 93 => ⟨S_, .f32⟩
  | 94 => ⟨S4096x100, .f32⟩
  | 95 => ⟨S4096x100, .f32⟩
  | 96 => ⟨S4096x100, .f32⟩
  | 97 => ⟨S4096x100, .f32⟩
  | 98 => ⟨S_, .f32⟩
  | 99 => ⟨S4096x100, .f32⟩
  | 100 => ⟨S4096x100, .f32⟩
  | 101 => ⟨S4096x100, .f32⟩
  | 102 => ⟨S4096x100, .f32⟩
  | 103 => ⟨S_, .f32⟩
  | 104 => ⟨S_, .f32⟩
  | 105 => ⟨S4096x100, .f32⟩
  | 106 => ⟨S4096x100, .f32⟩
  | 107 => ⟨S_, .f32⟩
  | 108 => ⟨S4096x100, .f32⟩
  | 109 => ⟨S4096x100, .f32⟩
  | 110 => ⟨S_, .f32⟩
  | 111 => ⟨S_, .f32⟩
  | 112 => ⟨S4096x100, .f32⟩
  | 113 => ⟨S4096x100, .f32⟩
  | 114 => ⟨S_, .f32⟩
  | 115 => ⟨S4096x100, .f32⟩
  | 116 => ⟨S4096x100, .f32⟩
  | 117 => ⟨S4096x100, .f32⟩
  | 118 => ⟨S4096x100, .f32⟩
  | 119 => ⟨S_, .f32⟩
  | 120 => ⟨S4096x100, .f32⟩
  | 121 => ⟨S4096x100, .i1⟩
  | 122 => ⟨S4096x100, .f32⟩
  | 123 => ⟨S_, .f32⟩
  | 124 => ⟨S4096, .f32⟩
  | 125 => ⟨S4096x1, .f32⟩
  | 126 => ⟨S4096, .i32⟩
  | 127 => ⟨S4096x1, .i32⟩
  | _ => ⟨S4096x2048, .f32⟩

abbrev hbmTy0_1 (i : Nat) : BufTy := match i % 128 with
  | 0 => ⟨S_, .i32⟩
  | 1 => ⟨S4096x1, .i32⟩
  | 2 => ⟨S4096x1, .i32⟩
  | 3 => ⟨S4096x2048, .i32⟩
  | 4 => ⟨S4096x2048, .i32⟩
  | 5 => ⟨S8388608, .i32⟩
  | 6 => ⟨S_, .f32⟩
  | 7 => ⟨S204800, .f32⟩
  | 8 => ⟨S_, .i32⟩
  | 9 => ⟨S8388608, .i32⟩
  | 10 => ⟨S8388608, .i1⟩
  | 11 => ⟨S_, .i32⟩
  | 12 => ⟨S8388608, .i32⟩
  | 13 => ⟨S8388608, .i32⟩
  | 14 => ⟨S8388608, .i32⟩
  | 15 => ⟨S8388608x1, .i32⟩
  | 16 => ⟨S_, .f32⟩
  | 17 => ⟨S8388608, .f32⟩
  | 18 => ⟨S204800, .f32⟩
  | 19 => ⟨S4096x50, .f32⟩
  | 20 => ⟨S8388608, .f32⟩
  | 21 => ⟨S_, .i32⟩
  | 22 => ⟨S8388608, .i32⟩
  | 23 => ⟨S8388608, .i1⟩
  | 24 => ⟨S_, .i32⟩
  | 25 => ⟨S8388608, .i32⟩
  | 26 => ⟨S8388608, .i32⟩
  | 27 => ⟨S8388608, .i32⟩
  | 28 => ⟨S8388608x1, .i32⟩
  | 29 => ⟨S204800, .f32⟩
  | 30 => ⟨S4096x50, .f32⟩
  | 31 => ⟨S4096x2048, .f32⟩
  | 32 => ⟨S8388608, .f32⟩
  | 33 => ⟨S_, .i32⟩
  | 34 => ⟨S8388608, .i32⟩
  | 35 => ⟨S8388608, .i1⟩
  | 36 => ⟨S_, .i32⟩
  | 37 => ⟨S8388608, .i32⟩
  | 38 => ⟨S8388608, .i32⟩
  | 39 => ⟨S8388608, .i32⟩
  | 40 => ⟨S8388608x1, .i32⟩
  | 41 => ⟨S204800, .f32⟩
  | 42 => ⟨S4096x50, .f32⟩
  | 43 => ⟨S50, .i32⟩
  | 44 => ⟨S_, .i32⟩
  | 45 => ⟨S50, .i32⟩
  | 46 => ⟨S50, .i1⟩
  | 47 => ⟨S50, .f32⟩
  | 48 => ⟨S1x50, .f32⟩
  | 49 => ⟨S4096x50, .f32⟩
  | 50 => ⟨S4096x50, .f32⟩
  | 51 => ⟨S_, .f32⟩
  | 52 => ⟨S4096x50, .f32⟩
  | 53 => ⟨S4096x50, .f32⟩
  | 54 => ⟨S4096x50, .f32⟩
  | 55 => ⟨S4096x50, .f32⟩
  | 56 => ⟨S_, .f32⟩
  | 57 => ⟨S4096x50, .f32⟩
  | 58 => ⟨S4096x50, .f32⟩
  | 59 => ⟨S4096x50, .f32⟩
  | 60 => ⟨S4096x50, .f32⟩
  | 61 => ⟨S_, .f32⟩
  | 62 => ⟨S_, .f32⟩
  | 63 => ⟨S4096x50, .f32⟩
  | 64 => ⟨S4096x50, .f32⟩
  | 65 => ⟨S_, .f32⟩
  | 66 => ⟨S4096x50, .f32⟩
  | 67 => ⟨S4096x50, .f32⟩
  | 68 => ⟨S_, .f32⟩
  | 69 => ⟨S_, .f32⟩
  | 70 => ⟨S4096x50, .f32⟩
  | 71 => ⟨S4096x50, .f32⟩
  | 72 => ⟨S_, .f32⟩
  | 73 => ⟨S4096x50, .f32⟩
  | 74 => ⟨S4096x50, .f32⟩
  | 75 => ⟨S4096x50, .f32⟩
  | 76 => ⟨S4096x50, .f32⟩
  | 77 => ⟨S_, .f32⟩
  | 78 => ⟨S4096x50, .f32⟩
  | 79 => ⟨S4096x50, .i1⟩
  | 80 => ⟨S4096x50, .f32⟩
  | 81 => ⟨S_, .f32⟩
  | 82 => ⟨S4096, .f32⟩
  | 83 => ⟨S4096x1, .f32⟩
  | 84 => ⟨S4096x456, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_c_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_11 : Ref sig .tc := ⟨.hbm, 63, rfl⟩
abbrev main_v42 : Ref sig .tc := ⟨.hbm, 64, rfl⟩
abbrev main_v43 : Ref sig .tc := ⟨.hbm, 65, rfl⟩
abbrev main_c_12 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_13 : Ref sig .tc := ⟨.hbm, 75, rfl⟩
abbrev main_v52 : Ref sig .tc := ⟨.hbm, 76, rfl⟩
abbrev main_v53 : Ref sig .tc := ⟨.hbm, 77, rfl⟩
abbrev main_c_14 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_15 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_16 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_17 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_18 : Ref sig .tc := ⟨.hbm, 103, rfl⟩
abbrev main_call2_v0 : Ref sig .tc := ⟨.hbm, 104, rfl⟩
abbrev main_call2_v1 : Ref sig .tc := ⟨.hbm, 105, rfl⟩
abbrev main_v75 : Ref sig .tc := ⟨.hbm, 106, rfl⟩
abbrev main_cst_19 : Ref sig .tc := ⟨.hbm, 107, rfl⟩
abbrev main_v76 : Ref sig .tc := ⟨.hbm, 108, rfl⟩
abbrev main_v77 : Ref sig .tc := ⟨.hbm, 109, rfl⟩
abbrev main_cst_20 : Ref sig .tc := ⟨.hbm, 110, rfl⟩
abbrev main_call3_v0 : Ref sig .tc := ⟨.hbm, 111, rfl⟩
abbrev main_call3_v1 : Ref sig .tc := ⟨.hbm, 112, rfl⟩
abbrev main_v78 : Ref sig .tc := ⟨.hbm, 113, rfl⟩
abbrev main_cst_21 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_22 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_23 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_24 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_25 : Ref sig .tc := ⟨.hbm, 134, rfl⟩
abbrev main_v95 : Ref sig .tc := ⟨.hbm, 135, rfl⟩
abbrev main_c_26 : Ref sig .tc := ⟨.hbm, 136, rfl⟩
abbrev main_v96 : Ref sig .tc := ⟨.hbm, 137, rfl⟩
abbrev main_v97 : Ref sig .tc := ⟨.hbm, 138, rfl⟩
abbrev main_c_27 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_28 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_c_29 : Ref sig .tc := ⟨.hbm, 149, rfl⟩
abbrev main_v106 : Ref sig .tc := ⟨.hbm, 150, rfl⟩
abbrev main_v107 : Ref sig .tc := ⟨.hbm, 151, rfl⟩
abbrev main_c_30 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_c_31 : Ref sig .tc := ⟨.hbm, 161, rfl⟩
abbrev main_v116 : Ref sig .tc := ⟨.hbm, 162, rfl⟩
abbrev main_v117 : Ref sig .tc := ⟨.hbm, 163, rfl⟩
abbrev main_c_32 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_c_33 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_34 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_35 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_cst_36 : Ref sig .tc := ⟨.hbm, 189, rfl⟩
abbrev main_call4_v0 : Ref sig .tc := ⟨.hbm, 190, rfl⟩
abbrev main_call4_v1 : Ref sig .tc := ⟨.hbm, 191, rfl⟩
abbrev main_v139 : Ref sig .tc := ⟨.hbm, 192, rfl⟩
abbrev main_cst_37 : Ref sig .tc := ⟨.hbm, 193, rfl⟩
abbrev main_v140 : Ref sig .tc := ⟨.hbm, 194, rfl⟩
abbrev main_v141 : Ref sig .tc := ⟨.hbm, 195, rfl⟩
abbrev main_cst_38 : Ref sig .tc := ⟨.hbm, 196, rfl⟩
abbrev main_call5_v0 : Ref sig .tc := ⟨.hbm, 197, rfl⟩
abbrev main_call5_v1 : Ref sig .tc := ⟨.hbm, 198, rfl⟩
abbrev main_v142 : Ref sig .tc := ⟨.hbm, 199, rfl⟩
abbrev main_cst_39 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_cst_40 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_cst_41 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  reducesTo_S4096x2048_S4096_d1 : S4096x2048.ReducesTo [1] S4096
  h_S_ : 0 < S_.numel
  bcast_S_S4096 : S_.BroadcastsInDim S4096 (![] : Fin 0 → Fin S4096.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  shapeCasts_S4096x2048_S8388608 : S4096x2048.ShapeCasts S8388608
  bcast_S_S409600 : S_.BroadcastsInDim S409600 (![] : Fin 0 → Fin S409600.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  shapeCasts_S409600_S4096x100 : S409600.ShapeCasts S4096x100
  bcast_S_S100 : S_.BroadcastsInDim S100 (![] : Fin 0 → Fin S100.rank)
  bcast_S100_S1x100_1 : S100.BroadcastsInDim S1x100 (![1] : Fin 1 → Fin S1x100.rank)
  bcast_S1x100_S4096x100_0_1 : S1x100.BroadcastsInDim S4096x100 (![0, 1] : Fin 2 → Fin S4096x100.rank)
  bcast_S_S4096x100 : S_.BroadcastsInDim S4096x100 (![] : Fin 0 → Fin S4096x100.rank)
  reducesTo_S4096x100_S4096_d1 : S4096x100.ReducesTo [1] S4096
  bcast_S_S204800 : S_.BroadcastsInDim S204800 (![] : Fin 0 → Fin S204800.rank)
  shapeCasts_S204800_S4096x50 : S204800.ShapeCasts S4096x50
  bcast_S_S50 : S_.BroadcastsInDim S50 (![] : Fin 0 → Fin S50.rank)
  bcast_S50_S1x50_1 : S50.BroadcastsInDim S1x50 (![1] : Fin 1 → Fin S1x50.rank)
  bcast_S1x50_S4096x50_0_1 : S1x50.BroadcastsInDim S4096x50 (![0, 1] : Fin 2 → Fin S4096x50.rank)
  bcast_S_S4096x50 : S_.BroadcastsInDim S4096x50 (![] : Fin 0 → Fin S4096x50.rank)
  reducesTo_S4096x50_S4096_d1 : S4096x50.ReducesTo [1] S4096
  concatenates_S4096x1_S4096x1_S4096x1_S4096x1_S4096x100_S4096x100_S4096x100_S4096x50_S4096x50_S4096x50_S4096x1_S4096x1_S4096x456_d1 : Shape.Concatenates [S4096x1, S4096x1, S4096x1, S4096x1, S4096x100, S4096x100, S4096x100, S4096x50, S4096x50, S4096x50, S4096x1, S4096x1] S4096x456 1
  scatter_S409600_S8388608x1_S8388608_n_0_0_1_wf : ScatterDims.WF S409600 S8388608x1 S8388608 [] [0] [0] 1
  scatter_S204800_S8388608x1_S8388608_n_0_0_1_wf : ScatterDims.WF S204800 S8388608x1 S8388608 [] [0] [0] 1

variable [Facts₀]

def scatter_S409600_S8388608x1_S8388608_n_0_0_1 : ScatterDims S409600 S8388608x1 S8388608 where
  updateWindowDims := []
  insertedWindowDims := [0]
  scatterDimsToOperandDims := [0]
  indexVectorDim := 1
  wf := scatter_S409600_S8388608x1_S8388608_n_0_0_1_wf
def scatter_S204800_S8388608x1_S8388608_n_0_0_1 : ScatterDims S204800 S8388608x1 S8388608 where
  updateWindowDims := []
  insertedWindowDims := [0]
  scatterDimsToOperandDims := [0]
  indexVectorDim := 1
  wf := scatter_S204800_S8388608x1_S8388608_n_0_0_1_wf

class Facts : Prop extends Facts₀ where

variable [Facts]
-- ==== Proof.KBRuns.lean ====
import proofs.«422984_j51135880626856_3_alg».proof.Proof.Gen.Kernel.Launch
import proofs.«422984_j51135880626856_3_alg».proof.Proof.Gen.Kernel.Skeleton
import proofs.«422984_j51135880626856_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12]

abbrev V0 (c : Dev nD) : Valuation τ sig (Elt F) := StableHlo.after (List.flatten []) (fun b => m (c, b))
abbrev V (c : Dev nD) (b : Ref sig .tc) := V0 m c (Proc.devRef .tc b)

theorem forall_ops {p : HloOp τ sig (Elt F) → Prop} (h : (tailOps (F := F)).Forall (·.Forall p)) :
    ∀ ops ∈ (tailOps (F := F)), ∀ op ∈ ops, p op :=
  fun ops hops => List.forall_iff_forall_mem.mp (List.forall_iff_forall_mem.mp h ops hops)

abbrev kept : List (Ref sig .tc) := [main_arg0, main_arg1, main_arg2, main_arg3, main_v0_0, main_v0_1, main_v0_2, main_v0_3, main_v0_4, main_v0_5, main_v0_6, main_v0_7]

theorem arr_kept : ∀ w : Fin 11, Pipeline.arrRef spec0 w ∈ kept := by decide

theorem keeps_of {r : Ref sig .tc} (h : r ∉ kept) :
    ∀ b ∈ kept, Proc.devRef (τ := τ) .tc b ∉ ({Proc.devRef .tc r} : Finset (DevRef τ sig)) :=
  fun b hb hm => h (Proc.devRef_injective _ (Finset.mem_singleton.mp hm) ▸ hb)

theorem tail_keeps_ref : ∀ ops ∈ (tailOps : List (List (HloOp τ sig (Elt F)))), ∀ op ∈ ops,
    ∀ b ∈ kept, Proc.devRef .tc b ∉ op.writes := by
  refine forall_ops ?_
  simp only [List.Forall]
  repeat' constructor
  all_goals exact keeps_of (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem tail_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem _ _ fun op hop hw => ?_, Pipeline.withArrays_of_ne _ c (V0 m c) _ main_arg3 (by decide)]
  · rfl
  · obtain ⟨ops, hops, hop'⟩ := List.mem_flatten.mp hop
    exact tail_keeps_ref ops hops op hop' main_arg3 (by decide) hw

abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 := by decide +kernel

section
variable (t : Fin cfg0.N)
abbrev ms0 := win0_0.stage (cfg0.slots t 0)
abbrev hs0 : (ms0 t).IsWhole := hstage0_0 ((cfg0.slots t 0).cast nbuf0_0)
abbrev ms1 := win0_1.stage (cfg0.slots t 1)
abbrev hs1 : (ms1 t).IsWhole := hstage0_1 ((cfg0.slots t 1).cast nbuf0_1)
abbrev ms2 := win0_2.stage (cfg0.slots t 2)
abbrev hs2 : (ms2 t).IsWhole := hstage0_2 ((cfg0.slots t 2).cast nbuf0_2)
abbrev ms3 := win0_3.stage (cfg0.slots t 3)
abbrev hs3 : (ms3 t).IsWhole := hstage0_3 ((cfg0.slots t 3).cast nbuf0_3)
abbrev ms4 := win0_4.stage (cfg0.slots t 4)
abbrev hs4 : (ms4 t).IsWhole := hstage0_4 ((cfg0.slots t 4).cast nbuf0_4)
abbrev ms5 := win0_5.stage (cfg0.slots t 5)
abbrev hs5 : (ms5 t).IsWhole := hstage0_5 ((cfg0.slots t 5).cast nbuf0_5)
abbrev ms6 := win0_6.stage (cfg0.slots t 6)
abbrev hs6 : (ms6 t).IsWhole := hstage0_6 ((cfg0.slots t 6).cast nbuf0_6)
abbrev ms7 := win0_7.stage (cfg0.slots t 7)
abbrev hs7 : (ms7 t).IsWhole := hstage0_7 ((cfg0.slots t 7).cast nbuf0_7)
abbrev ms8 := win0_8.stage (cfg0.slots t 8)
abbrev hs8 : (ms8 t).IsWhole := hstage0_8 ((cfg0.slots t 8).cast nbuf0_8)
abbrev ms9 := win0_9.stage (cfg0.slots t 9)
abbrev hs9 : (ms9 t).IsWhole := hstage0_9 ((cfg0.slots t 9).cast nbuf0_9)
abbrev ms10 := win0_10.stage (cfg0.slots t 10)
abbrev hs10 : (ms10 t).IsWhole := hstage0_10 ((cfg0.slots t 10).cast nbuf0_10)
end

abbrev VO3 : View sig .tc .vmem S128x1 .f32 := (Memref.whole cc0_stg3_0 : Memref sig .tc .vmem S128x1 .f32).view
abbrev VO4 : View sig .tc .vmem S128x1 .f32 := (Memref.whole cc0_stg4_0 : Memref sig .tc .vmem S128x1 .f32).view
abbrev VO5 : View sig .tc .vmem S128x128 .f32 := (Memref.whole cc0_stg5_0 : Memref sig .tc .vmem S128x128 .f32).view
abbrev VO6 : View sig .tc .vmem S128x128 .f32 := (Memref.whole cc0_stg6_0 : Memref sig .tc .vmem S128x128 .f32).view
abbrev VO7 : View sig .tc .vmem S128x128 .f32 := (Memref.whole cc0_stg7_0 : Memref sig .tc .vmem S128x128 .f32).view
abbrev VO8 : View sig .tc .vmem S128x128 .f32 := (Memref.whole cc0_stg8_0 : Memref sig .tc .vmem S128x128 .f32).view
abbrev VO9 : View sig .tc .vmem S128x128 .f32 := (Memref.whole cc0_stg9_0 : Memref sig .tc .vmem S128x128 .f32).view
abbrev VO10 : View sig .tc .vmem S128x128 .f32 := (Memref.whole cc0_stg10_0 : Memref sig .tc .vmem S128x128 .f32).view

end Cert.Kernel.Hand

end
-- ==== Proof.KBRunA.lean ====
import proofs.«422984_j51135880626856_3_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRunA (c : Dev nD) (i : grid0.Coords) {arg2 : Memref sig .tc .vmem S128x512 .f32} (harg2 : arg2.IsWhole) {arg3 : Memref sig .tc .vmem S128x512 .i32} (harg3 : arg3.IsWhole) {arg4 : Memref sig .tc .vmem S128x512 .i32} (harg4 : arg4.IsWhole) {arg5 : Memref sig .tc .vmem S128x1 .f32} (harg5 : arg5.IsWhole) {arg6 : Memref sig .tc .vmem S128x1 .f32} (harg6 : arg6.IsWhole) {arg7 : Memref sig .tc .vmem S128x128 .f32} (harg7 : arg7.IsWhole) {arg8 : Memref sig .tc .vmem S128x128 .f32} (harg8 : arg8.IsWhole) {arg9 : Memref sig .tc .vmem S128x128 .f32} (harg9 : arg9.IsWhole) {arg10 : Memref sig .tc .vmem S128x128 .f32} (harg10 : arg10.IsWhole) {arg11 : Memref sig .tc .vmem S128x128 .f32} (harg11 : arg11.IsWhole) {arg12 : Memref sig .tc .vmem S128x128 .f32} (harg12 : arg12.IsWhole) (hc0 : isFirst i)
    (x0 : Vec F S128x512 .f32) (x1 : Vec F S128x512 .i32) (x2 : Vec F S128x512 .i32) :
    Σ' (L5 : List (View.Piece (Elt F) S128x1 .f32)) (L6 : List (View.Piece (Elt F) S128x1 .f32)) (L7 : List (View.Piece (Elt F) S128x128 .f32)) (L8 : List (View.Piece (Elt F) S128x128 .f32)) (L9 : List (View.Piece (Elt F) S128x128 .f32)) (L10 : List (View.Piece (Elt F) S128x128 .f32)) (L11 : List (View.Piece (Elt F) S128x128 .f32)), { L12 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
          ⊢ wp frame (wpE (defs₀ (F := F)) Variants.none c none) E (cc0__agg_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, fun E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%d5, %g5, -, O5⟩, ⟨%d6, %g6, -, O6⟩, ⟨%d7, %g7, -, O7⟩, ⟨%d8, %g8, -, O8⟩, ⟨%d9, %g9, -, O9⟩, ⟨%d10, %g10, -, O10⟩, ⟨%d11, %g11, -, O11⟩, ⟨%d12, %g12, -, O12⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [O5]; · iexists _; iexact O5
    isplitl [O6]; · iexists _; iexact O6
    isplitl [O7]; · iexists _; iexact O7
    isplitl [O8]; · iexists _; iexact O8
    isplitl [O9]; · iexists _; iexact O9
    isplitl [O10]; · iexists _; iexact O10
    isplitl [O11]; · iexists _; iexact O11
    iexists _; iexact O12

end Cert.Kernel.Hand

end
-- ==== Proof.KBRunB.lean ====
import proofs.«422984_j51135880626856_3_alg».proof.Proof.KBRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRunB (c : Dev nD) (i : grid0.Coords) {arg2 : Memref sig .tc .vmem S128x512 .f32} (harg2 : arg2.IsWhole) {arg3 : Memref sig .tc .vmem S128x512 .i32} (harg3 : arg3.IsWhole) {arg4 : Memref sig .tc .vmem S128x512 .i32} (harg4 : arg4.IsWhole) {arg5 : Memref sig .tc .vmem S128x1 .f32} (harg5 : arg5.IsWhole) {arg6 : Memref sig .tc .vmem S128x1 .f32} (harg6 : arg6.IsWhole) {arg7 : Memref sig .tc .vmem S128x128 .f32} (harg7 : arg7.IsWhole) {arg8 : Memref sig .tc .vmem S128x128 .f32} (harg8 : arg8.IsWhole) {arg9 : Memref sig .tc .vmem S128x128 .f32} (harg9 : arg9.IsWhole) {arg10 : Memref sig .tc .vmem S128x128 .f32} (harg10 : arg10.IsWhole) {arg11 : Memref sig .tc .vmem S128x128 .f32} (harg11 : arg11.IsWhole) {arg12 : Memref sig .tc .vmem S128x128 .f32} (harg12 : arg12.IsWhole) (hc0 : ¬isFirst i)
    (x0 : Vec F S128x512 .f32) (x1 : Vec F S128x512 .i32) (x2 : Vec F S128x512 .i32) (xo5 : Vec F S128x1 .f32) (xo6 : Vec F S128x1 .f32) (xo7 : Vec F S128x128 .f32) (xo8 : Vec F S128x128 .f32) (xo9 : Vec F S128x128 .f32) (xo10 : Vec F S128x128 .f32) (xo11 : Vec F S128x128 .f32) (xo12 : Vec F S128x128 .f32) :
    Σ' (L5 : List (View.Piece (Elt F) S128x1 .f32)) (L6 : List (View.Piece (Elt F) S128x1 .f32)) (L7 : List (View.Piece (Elt F) S128x128 .f32)) (L8 : List (View.Piece (Elt F) S128x128 .f32)) (L9 : List (View.Piece (Elt F) S128x128 .f32)) (L10 : List (View.Piece (Elt F) S128x128 .f32)) (L11 : List (View.Piece (Elt F) S128x128 .f32)), { L12 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo5 ∗ owns (c : Thread nD τ) arg6 fullShare xo6 ∗ owns (c : Thread nD τ) arg7 fullShare xo7 ∗ owns (c : Thread nD τ) arg8 fullShare xo8 ∗ owns (c : Thread nD τ) arg9 fullShare xo9 ∗ owns (c : Thread nD τ) arg10 fullShare xo10 ∗ owns (c : Thread nD τ) arg11 fullShare xo11 ∗ owns (c : Thread nD τ) arg12 fullShare xo12
            ∗ (iprop(owns (c : Thread nD τ) arg2 fullShare x0 ∗ owns (c : Thread nD τ) arg3 fullShare x1 ∗ owns (c : Thread nD τ) arg4 fullShare x2 ∗ (arg5.view.loc (c : Thread nD τ) ↦[arg5.view.set]{fullShare} arg5.view.writes (Elt F) (harg5.unread xo5) L5) ∗ (arg6.view.loc (c : Thread nD τ) ↦[arg6.view.set]{fullShare} arg6.view.writes (Elt F) (harg6.unread xo6) L6) ∗ (arg7.view.loc (c : Thread nD τ) ↦[arg7.view.set]{fullShare} arg7.view.writes (Elt F) (harg7.unread xo7) L7) ∗ (arg8.view.loc (c : Thread nD τ) ↦[arg8.view.set]{fullShare} arg8.view.writes (Elt F) (harg8.unread xo8) L8) ∗ (arg9.view.loc (c : Thread nD τ) ↦[arg9.view.set]{fullShare} arg9.view.writes (Elt F) (harg9.unread xo9) L9) ∗ (arg10.view.loc (c : Thread nD τ) ↦[arg10.view.set]{fullShare} arg10.view.writes (Elt F) (harg10.unread xo10) L10) ∗ (arg11.view.loc (c : Thread nD τ) ↦[arg11.view.set]{fullShare} arg11.view.writes (Elt F) (harg11.unread xo11) L11) ∗ (arg12.view.loc (c : Thread nD τ) ↦[arg12.view.set]{fullShare} arg12.view.writes (Elt F) (harg12.unread xo12) L12)) -∗ K ⟨⟩))
          ⊢ wp frame (wpE (defs₀ (F := F)) Variants.none c none) E (cc0__agg_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, fun E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%g5, %hg5, O5⟩, ⟨%g6, %hg6, O6⟩, ⟨%g7, %hg7, O7⟩, ⟨%g8, %hg8, O8⟩, ⟨%g9, %hg9, O9⟩, ⟨%g10, %hg10, O10⟩, ⟨%g11, %hg11, O11⟩, ⟨%g12, %hg12, O12⟩, Hk⟩
    obtain rfl := harg2.eq_unread hf0; obtain rfl := harg3.eq_unread hf1; obtain rfl := harg4.eq_unread hf2; obtain rfl := harg5.eq_unread hg5; obtain rfl := harg6.eq_unread hg6; obtain rfl := harg7.eq_unread hg7; obtain rfl := harg8.eq_unread hg8; obtain rfl := harg9.eq_unread hg9; obtain rfl := harg10.eq_unread hg10; obtain rfl := harg11.eq_unread hg11; obtain rfl := harg12.eq_unread hg12
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [O5]; · iexact O5
    isplitl [O6]; · iexact O6
    isplitl [O7]; · iexact O7
    isplitl [O8]; · iexact O8
    isplitl [O9]; · iexact O9
    isplitl [O10]; · iexact O10
    isplitl [O11]; · iexact O11
    iexact O12

end Cert.Kernel.Hand

end
-- ==== Proof.KBFrame.lean ====
import proofs.«422984_j51135880626856_3_alg».proof.Proof.KBRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- Pieces written over the contents `X` of a whole memref are owned at what any whole memref of the shape reads of them.
theorem owns_writes_unread {c : Thread nD τ} {sp sp' : Space} {κ' : Kind} {s : Shape} {e : EltTy}
    {M : Memref sig c.2.kind sp s e} (hM : M.IsWhole) {M' : Memref sig κ' sp' s e} {hM' : M'.IsWhole}
    {X : s.Idx → Elt F e} {L : List (View.Piece (Elt F) s e)} :
    (M.view.loc c ↦[M.view.set]{fullShare} M.view.writes (Elt F) (hM.unread X) L : sProp 𝕄)
      ⊢ owns c M fullShare (M'.view.read (Elt F) (M'.view.writes (Elt F) (hM'.unread X) L)) := by
  have h : M.view.read (Elt F) (M.view.writes (Elt F) (hM.unread X) L) = M'.view.read (Elt F) (M'.view.writes (Elt F) (hM'.unread X) L) := funext fun y => by
    by_cases h : ∃ p ∈ L, y ∈ p.1.set
    · exact View.read_writes_apply_eq _ _ _ _ y L h
    · have h' : ∀ p ∈ L, y ∉ p.1.set := fun p hp hy => h ⟨p, hp, hy⟩
      rw [View.read_writes_apply_of_forall_not_mem _ _ y L h', View.read_writes_apply_of_forall_not_mem _ _ y L h',
        hM.read_unread, hM'.read_unread]
  rw [← h]; exact owns_intro c M fullShare _

section pieces
variable (c : Dev nD) (i : grid0.Coords) {arg2 : Memref sig .tc .vmem S128x512 .f32} {arg3 arg4 : Memref sig .tc .vmem S128x512 .i32} {arg5 arg6 : Memref sig .tc .vmem S128x1 .f32} {arg7 arg8 arg9 arg10 arg11 arg12 : Memref sig .tc .vmem S128x128 .f32}
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole)

section first
variable (hc0 : isFirst i) (x0 : Vec F S128x512 .f32) (x1 x2 : Vec F S128x512 .i32)
theorem coverA3 (y : S128x1.Idx) : ∃ pc ∈ (kernelRunA c i harg2 harg3 harg4 harg5 harg6 harg7 harg8 harg9 harg10 harg11 harg12 hc0 x0 x1 x2).1, y ∈ pc.1.set :=
  View.cover_of_tiledL _ S128x1.size (by sl_kernel_rfl) y
def outA3 : Vec F S128x1 .f32 := VO3.read (Elt F) (VO3.writes (Elt F) VO3.junk (kernelRunA c i harg2 harg3 harg4 harg5 harg6 harg7 harg8 harg9 harg10 harg11 harg12 hc0 x0 x1 x2).1)
theorem coverA4 (y : S128x1.Idx) : ∃ pc ∈ (kernelRunA c i harg2 harg3 harg4 harg5 harg6 harg7 harg8 harg9 harg10 harg11 harg12 hc0 x0 x1 x2).2.1, y ∈ pc.1.set :=
  View.cover_of_tiledL _ S128x1.size (by sl_kernel_rfl) y
def outA4 : Vec F S128x1 .f32 := VO4.read (Elt F) (VO4.writes (Elt F) VO4.junk (kernelRunA c i harg2 harg3 harg4 harg5 harg6 harg7 harg8 harg9 harg10 harg11 harg12 hc0 x0 x1 x2).2.1)
def outA5 : Vec F S128x128 .f32 := VO5.read (Elt F) (VO5.writes (Elt F) VO5.junk (kernelRunA c i harg2 harg3 harg4 harg5 harg6 harg7 harg8 harg9 harg10 harg11 harg12 hc0 x0 x1 x2).2.2.1)
def outA6 : Vec F S128x128 .f32 := VO6.read (Elt F) (VO6.writes (Elt F) VO6.junk (kernelRunA c i harg2 harg3 harg4 harg5 harg6 harg7 harg8 harg9 harg10 harg11 harg12 hc0 x0 x1 x2).2.2.2.1)
def outA7 : Vec F S128x128 .f32 := VO7.read (Elt F) (VO7.writes (Elt F) VO7.junk (kernelRunA c i harg2 harg3 harg4 harg5 harg6 harg7 harg8 harg9 harg10 harg11 harg12 hc0 x0 x1 x2).2.2.2.2.1)
def outA8 : Vec F S128x128 .f32 := VO8.read (Elt F) (VO8.writes (Elt F) VO8.junk (kernelRunA c i harg2 harg3 harg4 harg5 harg6 harg7 harg8 harg9 harg10 harg11 harg12 hc0 x0 x1 x2).2.2.2.2.2.1)
def outA9 : Vec F S128x128 .f32 := VO9.read (Elt F) (VO9.writes (Elt F) VO9.junk (kernelRunA c i harg2 harg3 harg4 harg5 harg6 harg7 harg8 harg9 harg10 harg11 harg12 hc0 x0 x1 x2).2.2.2.2.2.2.1)
def outA10 : Vec F S128x128 .f32 := VO10.read (Elt F) (VO10.writes (Elt F) VO10.junk (kernelRunA c i harg2 harg3 harg4 harg5 harg6 harg7 harg8 harg9 harg10 harg11 harg12 hc0 x0 x1 x2).2.2.2.2.2.2.2.1)
end first

section later
variable (hc0 : ¬isFirst i) (x0 : Vec F S128x512 .f32) (x1 x2 : Vec F S128x512 .i32) (xo5 xo6 : Vec F S128x1 .f32) (xo7 xo8 xo9 xo10 xo11 xo12 : Vec F S128x128 .f32)
def outB3 : Vec F S128x1 .f32 :=
  VO3.read (Elt F) (VO3.writes (Elt F) ((Memref.isWhole_whole cc0_stg3_0).unread xo5) (kernelRunB c i harg2 harg3 harg4 harg5 harg6 harg7 harg8 harg9 harg10 harg11 harg12 hc0 x0 x1 x2 xo5 xo6 xo7 xo8 xo9 xo10 xo11 xo12).1)
def outB4 : Vec F S128x1 .f32 :=
  VO4.read (Elt F) (VO4.writes (Elt F) ((Memref.isWhole_whole cc0_stg4_0).unread xo6) (kernelRunB c i harg2 harg3 harg4 harg5 harg6 harg7 harg8 harg9 harg10 harg11 harg12 hc0 x0 x1 x2 xo5 xo6 xo7 xo8 xo9 xo10 xo11 xo12).2.1)
def outB5 : Vec F S128x128 .f32 :=
  VO5.read (Elt F) (VO5.writes (Elt F) ((Memref.isWhole_whole cc0_stg5_0).unread xo7) (kernelRunB c i harg2 harg3 harg4 harg5 harg6 harg7 harg8 harg9 harg10 harg11 harg12 hc0 x0 x1 x2 xo5 xo6 xo7 xo8 xo9 xo10 xo11 xo12).2.2.1)
def outB6 : Vec F S128x128 .f32 :=
  VO6.read (Elt F) (VO6.writes (Elt F) ((Memref.isWhole_whole cc0_stg6_0).unread xo8) (kernelRunB c i harg2 harg3 harg4 harg5 harg6 harg7 harg8 harg9 harg10 harg11 harg12 hc0 x0 x1 x2 xo5 xo6 xo7 xo8 xo9 xo10 xo11 xo12).2.2.2.1)
def outB7 : Vec F S128x128 .f32 :=
  VO7.read (Elt F) (VO7.writes (Elt F) ((Memref.isWhole_whole cc0_stg7_0).unread xo9) (kernelRunB c i harg2 harg3 harg4 harg5 harg6 harg7 harg8 harg9 harg10 harg11 harg12 hc0 x0 x1 x2 xo5 xo6 xo7 xo8 xo9 xo10 xo11 xo12).2.2.2.2.1)
def outB8 : Vec F S128x128 .f32 :=
  VO8.read (Elt F) (VO8.writes (Elt F) ((Memref.isWhole_whole cc0_stg8_0).unread xo10) (kernelRunB c i harg2 harg3 harg4 harg5 harg6 harg7 harg8 harg9 harg10 harg11 harg12 hc0 x0 x1 x2 xo5 xo6 xo7 xo8 xo9 xo10 xo11 xo12).2.2.2.2.2.1)
def outB9 : Vec F S128x128 .f32 :=
  VO9.read (Elt F) (VO9.writes (Elt F) ((Memref.isWhole_whole cc0_stg9_0).unread xo11) (kernelRunB c i harg2 harg3 harg4 harg5 harg6 harg7 harg8 harg9 harg10 harg11 harg12 hc0 x0 x1 x2 xo5 xo6 xo7 xo8 xo9 xo10 xo11 xo12).2.2.2.2.2.2.1)
def outB10 : Vec F S128x128 .f32 :=
  VO10.read (Elt F) (VO10.writes (Elt F) ((Memref.isWhole_whole cc0_stg10_0).unread xo12) (kernelRunB c i harg2 harg3 harg4 harg5 harg6 harg7 harg8 harg9 harg10 harg11 harg12 hc0 x0 x1 x2 xo5 xo6 xo7 xo8 xo9 xo10 xo11 xo12).2.2.2.2.2.2.2.1)
end later
end pieces

abbrev Outs (F : FTy → Type) : Type := Vec F S128x1 .f32 × Vec F S128x1 .f32 × Vec F S128x128 .f32 × Vec F S128x128 .f32 × Vec F S128x128 .f32 × Vec F S128x128 .f32 × Vec F S128x128 .f32 × Vec F S128x128 .f32

def outsA (c : Dev nD) (t : Fin cfg0.N) (h0 : t.val % 4 = 0) : Outs F :=
  (outA3 c (grid0.coords t) (hs0 t) (hs1 t) (hs2 t) (hs3 t) (hs4 t) (hs5 t) (hs6 t) (hs7 t) (hs8 t) (hs9 t) (hs10 t) ((isFirst_iff t).mpr h0) (iblk m c 0 t) (iblk m c 1 t) (iblk m c 2 t),
   outA4 c (grid0.coords t) (hs0 t) (hs1 t) (hs2 t) (hs3 t) (hs4 t) (hs5 t) (hs6 t) (hs7 t) (hs8 t) (hs9 t) (hs10 t) ((isFirst_iff t).mpr h0) (iblk m c 0 t) (iblk m c 1 t) (iblk m c 2 t),
   outA5 c (grid0.coords t) (hs0 t) (hs1 t) (hs2 t) (hs3 t) (hs4 t) (hs5 t) (hs6 t) (hs7 t) (hs8 t) (hs9 t) (hs10 t) ((isFirst_iff t).mpr h0) (iblk m c 0 t) (iblk m c 1 t) (iblk m c 2 t),
   outA6 c (grid0.coords t) (hs0 t) (hs1 t) (hs2 t) (hs3 t) (hs4 t) (hs5 t) (hs6 t) (hs7 t) (hs8 t) (hs9 t) (hs10 t) ((isFirst_iff t).mpr h0) (iblk m c 0 t) (iblk m c 1 t) (iblk m c 2 t),
   outA7 c (grid0.coords t) (hs0 t) (hs1 t) (hs2 t) (hs3 t) (hs4 t) (hs5 t) (hs6 t) (hs7 t) (hs8 t) (hs9 t) (hs10 t) ((isFirst_iff t).mpr h0) (iblk m c 0 t) (iblk m c 1 t) (iblk m c 2 t),
   outA8 c (grid0.coords t) (hs0 t) (hs1 t) (hs2 t) (hs3 t) (hs4 t) (hs5 t) (hs6 t) (hs7 t) (hs8 t) (hs9 t) (hs10 t) ((isFirst_iff t).mpr h0) (iblk m c 0 t) (iblk m c 1 t) (iblk m c 2 t),
   outA9 c (grid0.coords t) (hs0 t) (hs1 t) (hs2 t) (hs3 t) (hs4 t) (hs5 t) (hs6 t) (hs7 t) (hs8 t) (hs9 t) (hs10 t) ((isFirst_iff t).mpr h0) (iblk m c 0 t) (iblk m c 1 t) (iblk m c 2 t),
   outA10 c (grid0.coords t) (hs0 t) (hs1 t) (hs2 t) (hs3 t) (hs4 t) (hs5 t) (hs6 t) (hs7 t) (hs8 t) (hs9 t) (hs10 t) ((isFirst_iff t).mpr h0) (iblk m c 0 t) (iblk m c 1 t) (iblk m c 2 t))
def outsB (c : Dev nD) (t : Fin cfg0.N) (h0 : ¬t.val % 4 = 0) (xo : Outs F) : Outs F :=
  (outB3 c (grid0.coords t) (hs0 t) (hs1 t) (hs2 t) (hs3 t) (hs4 t) (hs5 t) (hs6 t) (hs7 t) (hs8 t) (hs9 t) (hs10 t) (fun h => h0 ((isFirst_iff t).mp h)) (iblk m c 0 t) (iblk m c 1 t) (iblk m c 2 t) xo.1 xo.2.1 xo.2.2.1 xo.2.2.2.1 xo.2.2.2.2.1 xo.2.2.2.2.2.1 xo.2.2.2.2.2.2.1 xo.2.2.2.2.2.2.2,
   outB4 c (grid0.coords t) (hs0 t) (hs1 t) (hs2 t) (hs3 t) (hs4 t) (hs5 t) (hs6 t) (hs7 t) (hs8 t) (hs9 t) (hs10 t) (fun h => h0 ((isFirst_iff t).mp h)) (iblk m c 0 t) (iblk m c 1 t) (iblk m c 2 t) xo.1 xo.2.1 xo.2.2.1 xo.2.2.2.1 xo.2.2.2.2.1 xo.2.2.2.2.2.1 xo.2.2.2.2.2.2.1 xo.2.2.2.2.2.2.2,
   outB5 c (grid0.coords t) (hs0 t) (hs1 t) (hs2 t) (hs3 t) (hs4 t) (hs5 t) (hs6 t) (hs7 t) (hs8 t) (hs9 t) (hs10 t) (fun h => h0 ((isFirst_iff t).mp h)) (iblk m c 0 t) (iblk m c 1 t) (iblk m c 2 t) xo.1 xo.2.1 xo.2.2.1 xo.2.2.2.1 xo.2.2.2.2.1 xo.2.2.2.2.2.1 xo.2.2.2.2.2.2.1 xo.2.2.2.2.2.2.2,
   outB6 c (grid0.coords t) (hs0 t) (hs1 t) (hs2 t) (hs3 t) (hs4 t) (hs5 t) (hs6 t) (hs7 t) (hs8 t) (hs9 t) (hs10 t) (fun h => h0 ((isFirst_iff t).mp h)) (iblk m c 0 t) (iblk m c 1 t) (iblk m c 2 t) xo.1 xo.2.1 xo.2.2.1 xo.2.2.2.1 xo.2.2.2.2.1 xo.2.2.2.2.2.1 xo.2.2.2.2.2.2.1 xo.2.2.2.2.2.2.2,
   outB7 c (grid0.coords t) (hs0 t) (hs1 t) (hs2 t) (hs3 t) (hs4 t) (hs5 t) (hs6 t) (hs7 t) (hs8 t) (hs9 t) (hs10 t) (fun h => h0 ((isFirst_iff t).mp h)) (iblk m c 0 t) (iblk m c 1 t) (iblk m c 2 t) xo.1 xo.2.1 xo.2.2.1 xo.2.2.2.1 xo.2.2.2.2.1 xo.2.2.2.2.2.1 xo.2.2.2.2.2.2.1 xo.2.2.2.2.2.2.2,
   outB8 c (grid0.coords t) (hs0 t) (hs1 t) (hs2 t) (hs3 t) (hs4 t) (hs5 t) (hs6 t) (hs7 t) (hs8 t) (hs9 t) (hs10 t) (fun h => h0 ((isFirst_iff t).mp h)) (iblk m c 0 t) (iblk m c 1 t) (iblk m c 2 t) xo.1 xo.2.1 xo.2.2.1 xo.2.2.2.1 xo.2.2.2.2.1 xo.2.2.2.2.2.1 xo.2.2.2.2.2.2.1 xo.2.2.2.2.2.2.2,
   outB9 c (grid0.coords t) (hs0 t) (hs1 t) (hs2 t) (hs3 t) (hs4 t) (hs5 t) (hs6 t) (hs7 t) (hs8 t) (hs9 t) (hs10 t) (fun h => h0 ((isFirst_iff t).mp h)) (iblk m c 0 t) (iblk m c 1 t) (iblk m c 2 t) xo.1 xo.2.1 xo.2.2.1 xo.2.2.2.1 xo.2.2.2.2.1 xo.2.2.2.2.2.1 xo.2.2.2.2.2.2.1 xo.2.2.2.2.2.2.2,
   outB10 c (grid0.coords t) (hs0 t) (hs1 t) (hs2 t) (hs3 t) (hs4 t) (hs5 t) (hs6 t) (hs7 t) (hs8 t) (hs9 t) (hs10 t) (fun h => h0 ((isFirst_iff t).mp h)) (iblk m c 0 t) (iblk m c 1 t) (iblk m c 2 t) xo.1 xo.2.1 xo.2.2.1 xo.2.2.2.1 xo.2.2.2.2.1 xo.2.2.2.2.2.1 xo.2.2.2.2.2.2.1 xo.2.2.2.2.2.2.2)

def outsAt (c : Dev nD) : (n : ℕ) → n < cfg0.N → Outs F
  | 0, hn => outsA m c ⟨0, hn⟩ (Nat.zero_mod _)
  | n + 1, hn =>
    if h0 : (n + 1) % 4 = 0 then outsA m c ⟨n + 1, hn⟩ h0
    else outsB m c ⟨n + 1, hn⟩ h0 (outsAt c n (Nat.lt_of_succ_lt hn))

theorem outsAt_A (c : Dev nD) (t : Fin cfg0.N) (h0 : t.val % 4 = 0) : outsAt m c t.val t.isLt = outsA m c t h0 := by
  obtain ⟨_ | n, hn⟩ := t
  · rfl
  · exact dif_pos h0

theorem outsAt_B (c : Dev nD) (t : Fin cfg0.N) (h0 : ¬t.val % 4 = 0) :
    outsAt m c t.val t.isLt = outsB m c t h0 (outsAt m c (t.val - 1) (Nat.lt_of_le_of_lt (Nat.sub_le _ _) t.isLt)) := by
  obtain ⟨_ | n, hn⟩ := t
  · exact absurd (Nat.zero_mod _) h0
  · exact dif_neg h0

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
    | ⟨4, _⟩ => (outsAt m c t.val t.isLt).2.1
    | ⟨5, _⟩ => (outsAt m c t.val t.isLt).2.2.1
    | ⟨6, _⟩ => (outsAt m c t.val t.isLt).2.2.2.1
    | ⟨7, _⟩ => (outsAt m c t.val t.isLt).2.2.2.2.1
    | ⟨8, _⟩ => (outsAt m c t.val t.isLt).2.2.2.2.2.1
    | ⟨9, _⟩ => (outsAt m c t.val t.isLt).2.2.2.2.2.2.1
    | ⟨10, _⟩ => (outsAt m c t.val t.isLt).2.2.2.2.2.2.2
  Φ _ := Pipeline.ΦA spec0 c
  q _ := fullShare
  owed _ := 0

theorem A_eq (c : Dev nD) (w : Fin cfg0.W) : (dats m 0 c).A w = V m c (Pipeline.arrRef spec0 w) := rfl

section
variable (c : Dev nD) (t : Fin cfg0.N)

theorem before0 (d) : (dats m 0 c).before 0 t d = iblk m c 0 t :=
  ((dats m 0 c).before_in_eq_fetched 0 rfl (fun _ => rfl) (fun _ _ _ => rfl) (fun _ => rfl) t d).trans rfl
theorem before1 (d) : (dats m 0 c).before 1 t d = iblk m c 1 t :=
  ((dats m 0 c).before_in_eq_fetched 1 rfl (fun _ => rfl) (fun _ _ _ => rfl) (fun _ => rfl) t d).trans rfl
theorem before2 (d) : (dats m 0 c).before 2 t d = iblk m c 2 t :=
  ((dats m 0 c).before_in_eq_fetched 2 rfl (fun _ => rfl) (fun _ _ _ => rfl) (fun _ => rfl) t d).trans rfl

theorem before_B (h0 : ¬t.val % 4 = 0) (w : Fin cfg0.W) (hfl : ∀ t : Fin cfg0.N, (cfg0.win w).flush t = true ↔ t.val % 4 = 3) {d}
    (hw : (cfg0.win w).isOut = true := by rfl) (hlive : ∀ i, cfg0.idle w i = false := by exact fun _ => rfl)
    (hclip : ∀ (i : cfg0.grid.Coords) a, (cfg0.win w).clip i a = none := by exact fun _ _ => rfl) :
    (dats m 0 c).before w t d = (dats m 0 c).after w ⟨t.val - 1, Nat.lt_of_le_of_lt (Nat.sub_le _ _) t.isLt⟩ :=
  Dat.before_out_kept _ w hw t (by omega)
    (Bool.eq_false_iff.mpr fun h => by have := (hfl _).mp h; dsimp only at this; omega) hlive hclip d

theorem sound_body :
    (iprop((dats m 0 c).Φ t.castSucc ∗ (dats m 0 c).owesAt () t.castSucc
    ∗ (∃ d, owns c (ms0 t) fullShare ((dats m 0 c).before 0 t d))
    ∗ (∃ d, owns c (ms1 t) fullShare ((dats m 0 c).before 1 t d))
    ∗ (∃ d, owns c (ms2 t) fullShare ((dats m 0 c).before 2 t d))
    ∗ (∃ d, owns c (ms3 t) fullShare ((dats m 0 c).before 3 t d))
    ∗ (∃ d, owns c (ms4 t) fullShare ((dats m 0 c).before 4 t d))
    ∗ (∃ d, owns c (ms5 t) fullShare ((dats m 0 c).before 5 t d))
    ∗ (∃ d, owns c (ms6 t) fullShare ((dats m 0 c).before 6 t d))
    ∗ (∃ d, owns c (ms7 t) fullShare ((dats m 0 c).before 7 t d))
    ∗ (∃ d, owns c (ms8 t) fullShare ((dats m 0 c).before 8 t d))
    ∗ (∃ d, owns c (ms9 t) fullShare ((dats m 0 c).before 9 t d))
    ∗ (∃ d, owns c (ms10 t) fullShare ((dats m 0 c).before 10 t d))) : sProp 𝕄)
      ⊢ wp frame (wpE (defs₀ (F := F)) Variants.none c none) Set.univ (bodyAt0 t) (fun _ =>
  iprop((dats m 0 c).Φ t.castSucc ∗ (dats m 0 c).owesAt () t.castSucc
    ∗ owns c (ms0 t) fullShare (iblk m c 0 t)
    ∗ owns c (ms1 t) fullShare (iblk m c 1 t)
    ∗ owns c (ms2 t) fullShare (iblk m c 2 t)
    ∗ owns c (ms3 t) fullShare (outsAt m c t.val t.isLt).1
    ∗ owns c (ms4 t) fullShare (outsAt m c t.val t.isLt).2.1
    ∗ owns c (ms5 t) fullShare (outsAt m c t.val t.isLt).2.2.1
    ∗ owns c (ms6 t) fullShare (outsAt m c t.val t.isLt).2.2.2.1
    ∗ owns c (ms7 t) fullShare (outsAt m c t.val t.isLt).2.2.2.2.1
    ∗ owns c (ms8 t) fullShare (outsAt m c t.val t.isLt).2.2.2.2.2.1
    ∗ owns c (ms9 t) fullShare (outsAt m c t.val t.isLt).2.2.2.2.2.2.1
    ∗ owns c (ms10 t) fullShare (outsAt m c t.val t.isLt).2.2.2.2.2.2.2)) := by
  unfold bodyAt0
  simp only [before0, before1, before2]
  by_cases h0 : t.val % 4 = 0
  · rw [outsAt_A m c t h0]
    unfold outsA outA3 outA4 outA5 outA6 outA7 outA8 outA9 outA10
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRunA c (grid0.coords t) _ _ _ _ _ _ _ _ _ _ _ ((isFirst_iff t).mpr h0) (iblk m c 0 t) (iblk m c 1 t) (iblk m c 2 t)).2.2.2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iintro ⟨H0, H1, H2, ⟨%e3, H3⟩, ⟨%e4, H4⟩, ⟨%e5, H5⟩, ⟨%e6, H6⟩, ⟨%e7, H7⟩, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · ihave H := (Ring.owns_of_writes_tiledL VO3 S128x1.size) $$ H3; iapply H; ipureintro; sl_kernel_rfl
    isplitl [H4]; · ihave H := (Ring.owns_of_writes_tiledL VO4 S128x1.size) $$ H4; iapply H; ipureintro; sl_kernel_rfl
    isplitl [H5]; · ihave H := (Ring.owns_of_writes_tiledL VO5 S128x128.size) $$ H5; iapply H; ipureintro; sl_kernel_rfl
    isplitl [H6]; · ihave H := (Ring.owns_of_writes_tiledL VO6 S128x128.size) $$ H6; iapply H; ipureintro; sl_kernel_rfl
    isplitl [H7]; · ihave H := (Ring.owns_of_writes_tiledL VO7 S128x128.size) $$ H7; iapply H; ipureintro; sl_kernel_rfl
    isplitl [H8]; · ihave H := (Ring.owns_of_writes_tiledL VO8 S128x128.size) $$ H8; iapply H; ipureintro; sl_kernel_rfl
    isplitl [H9]; · ihave H := (Ring.owns_of_writes_tiledL VO9 S128x128.size) $$ H9; iapply H; ipureintro; sl_kernel_rfl
    ihave H := (Ring.owns_of_writes_tiledL VO10 S128x128.size) $$ H10; iapply H; ipureintro; sl_kernel_rfl
  · rw [outsAt_B m c t h0]
    simp only [before_B m c t h0 3 flush0_3, before_B m c t h0 4 flush0_4, before_B m c t h0 5 flush0_5, before_B m c t h0 6 flush0_6, before_B m c t h0 7 flush0_7, before_B m c t h0 8 flush0_8, before_B m c t h0 9 flush0_9, before_B m c t h0 10 flush0_10]
    unfold outsB outB3 outB4 outB5 outB6 outB7 outB8 outB9 outB10
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRunB c (grid0.coords t) _ _ _ _ _ _ _ _ _ _ _ (fun h => h0 ((isFirst_iff t).mp h)) (iblk m c 0 t) (iblk m c 1 t) (iblk m c 2 t) _ _ _ _ _ _ _ _).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iapply owns_writes_unread (hs3 t); iexact H3
    isplitl [H4]; · iapply owns_writes_unread (hs4 t); iexact H4
    isplitl [H5]; · iapply owns_writes_unread (hs5 t); iexact H5
    isplitl [H6]; · iapply owns_writes_unread (hs6 t); iexact H6
    isplitl [H7]; · iapply owns_writes_unread (hs7 t); iexact H7
    isplitl [H8]; · iapply owns_writes_unread (hs8 t); iexact H8
    isplitl [H9]; · iapply owns_writes_unread (hs9 t); iexact H9
    iapply owns_writes_unread (hs10 t); iexact H10

end

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := by
      rw [Pipeline.tailRefs_none spec0 launch0.win.arr_unscoped]
      exact fun ops hops op hop => Pipeline.sub_ucRefs op
        (forall_ops (p := fun op => op.bufs ⊆ StableHlo.tcRefs τ sig) ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub⟩ ops hops op hop))
    (hfresh := forall_ops (by simp only [List.Forall]; repeat' constructor))
    (hkeep := fun ops hops op hop w => tail_keeps_ref ops hops op hop _ (arr_kept w))
    (hmain := Pipeline.hmain_around cfgs 0 defs₀ Variants.none m main [] tailOps (by simp only [List.Forall])
      (by simp only [List.Forall]) main_chain) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans ((dats m 0 c).arrAt_in 0 rfl _),
     ((h c).1 1).trans ((dats m 0 c).arrAt_in 1 rfl _),
     ((h c).1 2).trans ((dats m 0 c).arrAt_in 2 rfl _),
     ((h c).2 main_arg3 (by decide)).trans (tail_arg3 m (dats m) c)⟩) (run_main m ρ)

end Cert.Kernel.Hand

end
-- ==== Proof.KIRuns.lean ====
import proofs.«422984_j51135880626856_3_alg».proof.Proof.Gen.KernelIdeal.Launch
import proofs.«422984_j51135880626856_3_alg».proof.Proof.Gen.KernelIdeal.Skeleton
import proofs.«422984_j51135880626856_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12]

abbrev V0 (c : Dev nD) : Valuation τ sig (Elt F) := StableHlo.after (List.flatten []) (fun b => m (c, b))
abbrev V (c : Dev nD) (b : Ref sig .tc) := V0 m c (Proc.devRef .tc b)

theorem forall_ops {p : HloOp τ sig (Elt F) → Prop} (h : (tailOps (F := F)).Forall (·.Forall p)) :
    ∀ ops ∈ (tailOps (F := F)), ∀ op ∈ ops, p op :=
  fun ops hops => List.forall_iff_forall_mem.mp (List.forall_iff_forall_mem.mp h ops hops)

abbrev kept : List (Ref sig .tc) := [main_arg0, main_arg1, main_arg2, main_arg3, main_v0_0, main_v0_1, main_v0_2, main_v0_3, main_v0_4, main_v0_5, main_v0_6, main_v0_7]

theorem arr_kept : ∀ w : Fin 11, Pipeline.arrRef spec0 w ∈ kept := by decide

theorem keeps_of {r : Ref sig .tc} (h : r ∉ kept) :
    ∀ b ∈ kept, Proc.devRef (τ := τ) .tc b ∉ ({Proc.devRef .tc r} : Finset (DevRef τ sig)) :=
  fun b hb hm => h (Proc.devRef_injective _ (Finset.mem_singleton.mp hm) ▸ hb)

theorem tail_keeps_ref : ∀ ops ∈ (tailOps : List (List (HloOp τ sig (Elt F)))), ∀ op ∈ ops,
    ∀ b ∈ kept, Proc.devRef .tc b ∉ op.writes := by
  refine forall_ops ?_
  simp only [List.Forall]
  repeat' constructor
  all_goals exact keeps_of (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem tail_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem _ _ fun op hop hw => ?_, Pipeline.withArrays_of_ne _ c (V0 m c) _ main_arg3 (by decide)]
  · rfl
  · obtain ⟨ops, hops, hop'⟩ := List.mem_flatten.mp hop
    exact tail_keeps_ref ops hops op hop' main_arg3 (by decide) hw

abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 := by decide +kernel

section
variable (t : Fin cfg0.N)
abbrev ms0 := win0_0.stage (cfg0.slots t 0)
abbrev hs0 : (ms0 t).IsWhole := hstage0_0 ((cfg0.slots t 0).cast nbuf0_0)
abbrev ms1 := win0_1.stage (cfg0.slots t 1)
abbrev hs1 : (ms1 t).IsWhole := hstage0_1 ((cfg0.slots t 1).cast nbuf0_1)
abbrev ms2 := win0_2.stage (cfg0.slots t 2)
abbrev hs2 : (ms2 t).IsWhole := hstage0_2 ((cfg0.slots t 2).cast nbuf0_2)
abbrev ms3 := win0_3.stage (cfg0.slots t 3)
abbrev hs3 : (ms3 t).IsWhole := hstage0_3 ((cfg0.slots t 3).cast nbuf0_3)
abbrev ms4 := win0_4.stage (cfg0.slots t 4)
abbrev hs4 : (ms4 t).IsWhole := hstage0_4 ((cfg0.slots t 4).cast nbuf0_4)
abbrev ms5 := win0_5.stage (cfg0.slots t 5)
abbrev hs5 : (ms5 t).IsWhole := hstage0_5 ((cfg0.slots t 5).cast nbuf0_5)
abbrev ms6 := win0_6.stage (cfg0.slots t 6)
abbrev hs6 : (ms6 t).IsWhole := hstage0_6 ((cfg0.slots t 6).cast nbuf0_6)
abbrev ms7 := win0_7.stage (cfg0.slots t 7)
abbrev hs7 : (ms7 t).IsWhole := hstage0_7 ((cfg0.slots t 7).cast nbuf0_7)
abbrev ms8 := win0_8.stage (cfg0.slots t 8)
abbrev hs8 : (ms8 t).IsWhole := hstage0_8 ((cfg0.slots t 8).cast nbuf0_8)
abbrev ms9 := win0_9.stage (cfg0.slots t 9)
abbrev hs9 : (ms9 t).IsWhole := hstage0_9 ((cfg0.slots t 9).cast nbuf0_9)
abbrev ms10 := win0_10.stage (cfg0.slots t 10)
abbrev hs10 : (ms10 t).IsWhole := hstage0_10 ((cfg0.slots t 10).cast nbuf0_10)
end

abbrev VO3 : View sig .tc .vmem S128x1 .f32 := (Memref.whole cc0_stg3_0 : Memref sig .tc .vmem S128x1 .f32).view
abbrev VO4 : View sig .tc .vmem S128x1 .f32 := (Memref.whole cc0_stg4_0 : Memref sig .tc .vmem S128x1 .f32).view
abbrev VO5 : View sig .tc .vmem S128x128 .f32 := (Memref.whole cc0_stg5_0 : Memref sig .tc .vmem S128x128 .f32).view
abbrev VO6 : View sig .tc .vmem S128x128 .f32 := (Memref.whole cc0_stg6_0 : Memref sig .tc .vmem S128x128 .f32).view
abbrev VO7 : View sig .tc .vmem S128x128 .f32 := (Memref.whole cc0_stg7_0 : Memref sig .tc .vmem S128x128 .f32).view
abbrev VO8 : View sig .tc .vmem S128x128 .f32 := (Memref.whole cc0_stg8_0 : Memref sig .tc .vmem S128x128 .f32).view
abbrev VO9 : View sig .tc .vmem S128x128 .f32 := (Memref.whole cc0_stg9_0 : Memref sig .tc .vmem S128x128 .f32).view
abbrev VO10 : View sig .tc .vmem S128x128 .f32 := (Memref.whole cc0_stg10_0 : Memref sig .tc .vmem S128x128 .f32).view

end Cert.KernelIdeal.Hand

end
-- ==== Proof.KIRunA.lean ====
import proofs.«422984_j51135880626856_3_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRunA (c : Dev nD) (i : grid0.Coords) {arg2 : Memref sig .tc .vmem S128x512 .f32} (harg2 : arg2.IsWhole) {arg3 : Memref sig .tc .vmem S128x512 .i32} (harg3 : arg3.IsWhole) {arg4 : Memref sig .tc .vmem S128x512 .i32} (harg4 : arg4.IsWhole) {arg5 : Memref sig .tc .vmem S128x1 .f32} (harg5 : arg5.IsWhole) {arg6 : Memref sig .tc .vmem S128x1 .f32} (harg6 : arg6.IsWhole) {arg7 : Memref sig .tc .vmem S128x128 .f32} (harg7 : arg7.IsWhole) {arg8 : Memref sig .tc .vmem S128x128 .f32} (harg8 : arg8.IsWhole) {arg9 : Memref sig .tc .vmem S128x128 .f32} (harg9 : arg9.IsWhole) {arg10 : Memref sig .tc .vmem S128x128 .f32} (harg10 : arg10.IsWhole) {arg11 : Memref sig .tc .vmem S128x128 .f32} (harg11 : arg11.IsWhole) {arg12 : Memref sig .tc .vmem S128x128 .f32} (harg12 : arg12.IsWhole) (hc0 : isFirst i)
    (x0 : Vec F S128x512 .f32) (x1 : Vec F S128x512 .i32) (x2 : Vec F S128x512 .i32) :
    Σ' (L5 : List (View.Piece (Elt F) S128x1 .f32)) (L6 : List (View.Piece (Elt F) S128x1 .f32)) (L7 : List (View.Piece (Elt F) S128x128 .f32)) (L8 : List (View.Piece (Elt F) S128x128 .f32)) (L9 : List (View.Piece (Elt F) S128x128 .f32)) (L10 : List (View.Piece (Elt F) S128x128 .f32)) (L11 : List (View.Piece (Elt F) S128x128 .f32)), { L12 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
          ⊢ wp frame (wpE (defs₀ (F := F)) Variants.none c none) E (cc0__agg_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, fun E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%d5, %g5, -, O5⟩, ⟨%d6, %g6, -, O6⟩, ⟨%d7, %g7, -, O7⟩, ⟨%d8, %g8, -, O8⟩, ⟨%d9, %g9, -, O9⟩, ⟨%d10, %g10, -, O10⟩, ⟨%d11, %g11, -, O11⟩, ⟨%d12, %g12, -, O12⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [O5]; · iexists _; iexact O5
    isplitl [O6]; · iexists _; iexact O6
    isplitl [O7]; · iexists _; iexact O7
    isplitl [O8]; · iexists _; iexact O8
    isplitl [O9]; · iexists _; iexact O9
    isplitl [O10]; · iexists _; iexact O10
    isplitl [O11]; · iexists _; iexact O11
    iexists _; iexact O12

end Cert.KernelIdeal.Hand

end
-- ==== Proof.KIRunB.lean ====
import proofs.«422984_j51135880626856_3_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRunB (c : Dev nD) (i : grid0.Coords) {arg2 : Memref sig .tc .vmem S128x512 .f32} (harg2 : arg2.IsWhole) {arg3 : Memref sig .tc .vmem S128x512 .i32} (harg3 : arg3.IsWhole) {arg4 : Memref sig .tc .vmem S128x512 .i32} (harg4 : arg4.IsWhole) {arg5 : Memref sig .tc .vmem S128x1 .f32} (harg5 : arg5.IsWhole) {arg6 : Memref sig .tc .vmem S128x1 .f32} (harg6 : arg6.IsWhole) {arg7 : Memref sig .tc .vmem S128x128 .f32} (harg7 : arg7.IsWhole) {arg8 : Memref sig .tc .vmem S128x128 .f32} (harg8 : arg8.IsWhole) {arg9 : Memref sig .tc .vmem S128x128 .f32} (harg9 : arg9.IsWhole) {arg10 : Memref sig .tc .vmem S128x128 .f32} (harg10 : arg10.IsWhole) {arg11 : Memref sig .tc .vmem S128x128 .f32} (harg11 : arg11.IsWhole) {arg12 : Memref sig .tc .vmem S128x128 .f32} (harg12 : arg12.IsWhole) (hc0 : ¬isFirst i)
    (x0 : Vec F S128x512 .f32) (x1 : Vec F S128x512 .i32) (x2 : Vec F S128x512 .i32) (xo5 : Vec F S128x1 .f32) (xo6 : Vec F S128x1 .f32) (xo7 : Vec F S128x128 .f32) (xo8 : Vec F S128x128 .f32) (xo9 : Vec F S128x128 .f32) (xo10 : Vec F S128x128 .f32) (xo11 : Vec F S128x128 .f32) (xo12 : Vec F S128x128 .f32) :
    Σ' (L5 : List (View.Piece (Elt F) S128x1 .f32)) (L6 : List (View.Piece (Elt F) S128x1 .f32)) (L7 : List (View.Piece (Elt F) S128x128 .f32)) (L8 : List (View.Piece (Elt F) S128x128 .f32)) (L9 : List (View.Piece (Elt F) S128x128 .f32)) (L10 : List (View.Piece (Elt F) S128x128 .f32)) (L11 : List (View.Piece (Elt F) S128x128 .f32)), { L12 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo5 ∗ owns (c : Thread nD τ) arg6 fullShare xo6 ∗ owns (c : Thread nD τ) arg7 fullShare xo7 ∗ owns (c : Thread nD τ) arg8 fullShare xo8 ∗ owns (c : Thread nD τ) arg9 fullShare xo9 ∗ owns (c : Thread nD τ) arg10 fullShare xo10 ∗ owns (c : Thread nD τ) arg11 fullShare xo11 ∗ owns (c : Thread nD τ) arg12 fullShare xo12
            ∗ (iprop(owns (c : Thread nD τ) arg2 fullShare x0 ∗ owns (c : Thread nD τ) arg3 fullShare x1 ∗ owns (c : Thread nD τ) arg4 fullShare x2 ∗ (arg5.view.loc (c : Thread nD τ) ↦[arg5.view.set]{fullShare} arg5.view.writes (Elt F) (harg5.unread xo5) L5) ∗ (arg6.view.loc (c : Thread nD τ) ↦[arg6.view.set]{fullShare} arg6.view.writes (Elt F) (harg6.unread xo6) L6) ∗ (arg7.view.loc (c : Thread nD τ) ↦[arg7.view.set]{fullShare} arg7.view.writes (Elt F) (harg7.unread xo7) L7) ∗ (arg8.view.loc (c : Thread nD τ) ↦[arg8.view.set]{fullShare} arg8.view.writes (Elt F) (harg8.unread xo8) L8) ∗ (arg9.view.loc (c : Thread nD τ) ↦[arg9.view.set]{fullShare} arg9.view.writes (Elt F) (harg9.unread xo9) L9) ∗ (arg10.view.loc (c : Thread nD τ) ↦[arg10.view.set]{fullShare} arg10.view.writes (Elt F) (harg10.unread xo10) L10) ∗ (arg11.view.loc (c : Thread nD τ) ↦[arg11.view.set]{fullShare} arg11.view.writes (Elt F) (harg11.unread xo11) L11) ∗ (arg12.view.loc (c : Thread nD τ) ↦[arg12.view.set]{fullShare} arg12.view.writes (Elt F) (harg12.unread xo12) L12)) -∗ K ⟨⟩))
          ⊢ wp frame (wpE (defs₀ (F := F)) Variants.none c none) E (cc0__agg_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, fun E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%g5, %hg5, O5⟩, ⟨%g6, %hg6, O6⟩, ⟨%g7, %hg7, O7⟩, ⟨%g8, %hg8, O8⟩, ⟨%g9, %hg9, O9⟩, ⟨%g10, %hg10, O10⟩, ⟨%g11, %hg11, O11⟩, ⟨%g12, %hg12, O12⟩, Hk⟩
    obtain rfl := harg2.eq_unread hf0; obtain rfl := harg3.eq_unread hf1; obtain rfl := harg4.eq_unread hf2; obtain rfl := harg5.eq_unread hg5; obtain rfl := harg6.eq_unread hg6; obtain rfl := harg7.eq_unread hg7; obtain rfl := harg8.eq_unread hg8; obtain rfl := harg9.eq_unread hg9; obtain rfl := harg10.eq_unread hg10; obtain rfl := harg11.eq_unread hg11; obtain rfl := harg12.eq_unread hg12
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [O5]; · iexact O5
    isplitl [O6]; · iexact O6
    isplitl [O7]; · iexact O7
    isplitl [O8]; · iexact O8
    isplitl [O9]; · iexact O9
    isplitl [O10]; · iexact O10
    isplitl [O11]; · iexact O11
    iexact O12

end Cert.KernelIdeal.Hand

end
-- ==== Proof.KIFrame.lean ====
import proofs.«422984_j51135880626856_3_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- Pieces written over the contents `X` of a whole memref are owned at what any whole memref of the shape reads of them.
theorem owns_writes_unread {c : Thread nD τ} {sp sp' : Space} {κ' : Kind} {s : Shape} {e : EltTy}
    {M : Memref sig c.2.kind sp s e} (hM : M.IsWhole) {M' : Memref sig κ' sp' s e} {hM' : M'.IsWhole}
    {X : s.Idx → Elt F e} {L : List (View.Piece (Elt F) s e)} :
    (M.view.loc c ↦[M.view.set]{fullShare} M.view.writes (Elt F) (hM.unread X) L : sProp 𝕄)
      ⊢ owns c M fullShare (M'.view.read (Elt F) (M'.view.writes (Elt F) (hM'.unread X) L)) := by
  have h : M.view.read (Elt F) (M.view.writes (Elt F) (hM.unread X) L) = M'.view.read (Elt F) (M'.view.writes (Elt F) (hM'.unread X) L) := funext fun y => by
    by_cases h : ∃ p ∈ L, y ∈ p.1.set
    · exact View.read_writes_apply_eq _ _ _ _ y L h
    · have h' : ∀ p ∈ L, y ∉ p.1.set := fun p hp hy => h ⟨p, hp, hy⟩
      rw [View.read_writes_apply_of_forall_not_mem _ _ y L h', View.read_writes_apply_of_forall_not_mem _ _ y L h',
        hM.read_unread, hM'.read_unread]
  rw [← h]; exact owns_intro c M fullShare _

section pieces
variable (c : Dev nD) (i : grid0.Coords) {arg2 : Memref sig .tc .vmem S128x512 .f32} {arg3 arg4 : Memref sig .tc .vmem S128x512 .i32} {arg5 arg6 : Memref sig .tc .vmem S128x1 .f32} {arg7 arg8 arg9 arg10 arg11 arg12 : Memref sig .tc .vmem S128x128 .f32}
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole)

section first
variable (hc0 : isFirst i) (x0 : Vec F S128x512 .f32) (x1 x2 : Vec F S128x512 .i32)
theorem coverA3 (y : S128x1.Idx) : ∃ pc ∈ (kernelRunA c i harg2 harg3 harg4 harg5 harg6 harg7 harg8 harg9 harg10 harg11 harg12 hc0 x0 x1 x2).1, y ∈ pc.1.set :=
  View.cover_of_tiledL _ S128x1.size (by sl_kernel_rfl) y
def outA3 : Vec F S128x1 .f32 := VO3.read (Elt F) (VO3.writes (Elt F) VO3.junk (kernelRunA c i harg2 harg3 harg4 harg5 harg6 harg7 harg8 harg9 harg10 harg11 harg12 hc0 x0 x1 x2).1)
theorem coverA4 (y : S128x1.Idx) : ∃ pc ∈ (kernelRunA c i harg2 harg3 harg4 harg5 harg6 harg7 harg8 harg9 harg10 harg11 harg12 hc0 x0 x1 x2).2.1, y ∈ pc.1.set :=
  View.cover_of_tiledL _ S128x1.size (by sl_kernel_rfl) y
def outA4 : Vec F S128x1 .f32 := VO4.read (Elt F) (VO4.writes (Elt F) VO4.junk (kernelRunA c i harg2 harg3 harg4 harg5 harg6 harg7 harg8 harg9 harg10 harg11 harg12 hc0 x0 x1 x2).2.1)
def outA5 : Vec F S128x128 .f32 := VO5.read (Elt F) (VO5.writes (Elt F) VO5.junk (kernelRunA c i harg2 harg3 harg4 harg5 harg6 harg7 harg8 harg9 harg10 harg11 harg12 hc0 x0 x1 x2).2.2.1)
def outA6 : Vec F S128x128 .f32 := VO6.read (Elt F) (VO6.writes (Elt F) VO6.junk (kernelRunA c i harg2 harg3 harg4 harg5 harg6 harg7 harg8 harg9 harg10 harg11 harg12 hc0 x0 x1 x2).2.2.2.1)
def outA7 : Vec F S128x128 .f32 := VO7.read (Elt F) (VO7.writes (Elt F) VO7.junk (kernelRunA c i harg2 harg3 harg4 harg5 harg6 harg7 harg8 harg9 harg10 harg11 harg12 hc0 x0 x1 x2).2.2.2.2.1)
def outA8 : Vec F S128x128 .f32 := VO8.read (Elt F) (VO8.writes (Elt F) VO8.junk (kernelRunA c i harg2 harg3 harg4 harg5 harg6 harg7 harg8 harg9 harg10 harg11 harg12 hc0 x0 x1 x2).2.2.2.2.2.1)
def outA9 : Vec F S128x128 .f32 := VO9.read (Elt F) (VO9.writes (Elt F) VO9.junk (kernelRunA c i harg2 harg3 harg4 harg5 harg6 harg7 harg8 harg9 harg10 harg11 harg12 hc0 x0 x1 x2).2.2.2.2.2.2.1)
def outA10 : Vec F S128x128 .f32 := VO10.read (Elt F) (VO10.writes (Elt F) VO10.junk (kernelRunA c i harg2 harg3 harg4 harg5 harg6 harg7 harg8 harg9 harg10 harg11 harg12 hc0 x0 x1 x2).2.2.2.2.2.2.2.1)
end first

section later
variable (hc0 : ¬isFirst i) (x0 : Vec F S128x512 .f32) (x1 x2 : Vec F S128x512 .i32) (xo5 xo6 : Vec F S128x1 .f32) (xo7 xo8 xo9 xo10 xo11 xo12 : Vec F S128x128 .f32)
def outB3 : Vec F S128x1 .f32 :=
  VO3.read (Elt F) (VO3.writes (Elt F) ((Memref.isWhole_whole cc0_stg3_0).unread xo5) (kernelRunB c i harg2 harg3 harg4 harg5 harg6 harg7 harg8 harg9 harg10 harg11 harg12 hc0 x0 x1 x2 xo5 xo6 xo7 xo8 xo9 xo10 xo11 xo12).1)
def outB4 : Vec F S128x1 .f32 :=
  VO4.read (Elt F) (VO4.writes (Elt F) ((Memref.isWhole_whole cc0_stg4_0).unread xo6) (kernelRunB c i harg2 harg3 harg4 harg5 harg6 harg7 harg8 harg9 harg10 harg11 harg12 hc0 x0 x1 x2 xo5 xo6 xo7 xo8 xo9 xo10 xo11 xo12).2.1)
def outB5 : Vec F S128x128 .f32 :=
  VO5.read (Elt F) (VO5.writes (Elt F) ((Memref.isWhole_whole cc0_stg5_0).unread xo7) (kernelRunB c i harg2 harg3 harg4 harg5 harg6 harg7 harg8 harg9 harg10 harg11 harg12 hc0 x0 x1 x2 xo5 xo6 xo7 xo8 xo9 xo10 xo11 xo12).2.2.1)
def outB6 : Vec F S128x128 .f32 :=
  VO6.read (Elt F) (VO6.writes (Elt F) ((Memref.isWhole_whole cc0_stg6_0).unread xo8) (kernelRunB c i harg2 harg3 harg4 harg5 harg6 harg7 harg8 harg9 harg10 harg11 harg12 hc0 x0 x1 x2 xo5 xo6 xo7 xo8 xo9 xo10 xo11 xo12).2.2.2.1)
def outB7 : Vec F S128x128 .f32 :=
  VO7.read (Elt F) (VO7.writes (Elt F) ((Memref.isWhole_whole cc0_stg7_0).unread xo9) (kernelRunB c i harg2 harg3 harg4 harg5 harg6 harg7 harg8 harg9 harg10 harg11 harg12 hc0 x0 x1 x2 xo5 xo6 xo7 xo8 xo9 xo10 xo11 xo12).2.2.2.2.1)
def outB8 : Vec F S128x128 .f32 :=
  VO8.read (Elt F) (VO8.writes (Elt F) ((Memref.isWhole_whole cc0_stg8_0).unread xo10) (kernelRunB c i harg2 harg3 harg4 harg5 harg6 harg7 harg8 harg9 harg10 harg11 harg12 hc0 x0 x1 x2 xo5 xo6 xo7 xo8 xo9 xo10 xo11 xo12).2.2.2.2.2.1)
def outB9 : Vec F S128x128 .f32 :=
  VO9.read (Elt F) (VO9.writes (Elt F) ((Memref.isWhole_whole cc0_stg9_0).unread xo11) (kernelRunB c i harg2 harg3 harg4 harg5 harg6 harg7 harg8 harg9 harg10 harg11 harg12 hc0 x0 x1 x2 xo5 xo6 xo7 xo8 xo9 xo10 xo11 xo12).2.2.2.2.2.2.1)
def outB10 : Vec F S128x128 .f32 :=
  VO10.read (Elt F) (VO10.writes (Elt F) ((Memref.isWhole_whole cc0_stg10_0).unread xo12) (kernelRunB c i harg2 harg3 harg4 harg5 harg6 harg7 harg8 harg9 harg10 harg11 harg12 hc0 x0 x1 x2 xo5 xo6 xo7 xo8 xo9 xo10 xo11 xo12).2.2.2.2.2.2.2.1)
end later
end pieces

abbrev Outs (F : FTy → Type) : Type := Vec F S128x1 .f32 × Vec F S128x1 .f32 × Vec F S128x128 .f32 × Vec F S128x128 .f32 × Vec F S128x128 .f32 × Vec F S128x128 .f32 × Vec F S128x128 .f32 × Vec F S128x128 .f32

def outsA (c : Dev nD) (t : Fin cfg0.N) (h0 : t.val % 4 = 0) : Outs F :=
  (outA3 c (grid0.coords t) (hs0 t) (hs1 t) (hs2 t) (hs3 t) (hs4 t) (hs5 t) (hs6 t) (hs7 t) (hs8 t) (hs9 t) (hs10 t) ((isFirst_iff t).mpr h0) (iblk m c 0 t) (iblk m c 1 t) (iblk m c 2 t),
   outA4 c (grid0.coords t) (hs0 t) (hs1 t) (hs2 t) (hs3 t) (hs4 t) (hs5 t) (hs6 t) (hs7 t) (hs8 t) (hs9 t) (hs10 t) ((isFirst_iff t).mpr h0) (iblk m c 0 t) (iblk m c 1 t) (iblk m c 2 t),
   outA5 c (grid0.coords t) (hs0 t) (hs1 t) (hs2 t) (hs3 t) (hs4 t) (hs5 t) (hs6 t) (hs7 t) (hs8 t) (hs9 t) (hs10 t) ((isFirst_iff t).mpr h0) (iblk m c 0 t) (iblk m c 1 t) (iblk m c 2 t),
   outA6 c (grid0.coords t) (hs0 t) (hs1 t) (hs2 t) (hs3 t) (hs4 t) (hs5 t) (hs6 t) (hs7 t) (hs8 t) (hs9 t) (hs10 t) ((isFirst_iff t).mpr h0) (iblk m c 0 t) (iblk m c 1 t) (iblk m c 2 t),
   outA7 c (grid0.coords t) (hs0 t) (hs1 t) (hs2 t) (hs3 t) (hs4 t) (hs5 t) (hs6 t) (hs7 t) (hs8 t) (hs9 t) (hs10 t) ((isFirst_iff t).mpr h0) (iblk m c 0 t) (iblk m c 1 t) (iblk m c 2 t),
   outA8 c (grid0.coords t) (hs0 t) (hs1 t) (hs2 t) (hs3 t) (hs4 t) (hs5 t) (hs6 t) (hs7 t) (hs8 t) (hs9 t) (hs10 t) ((isFirst_iff t).mpr h0) (iblk m c 0 t) (iblk m c 1 t) (iblk m c 2 t),
   outA9 c (grid0.coords t) (hs0 t) (hs1 t) (hs2 t) (hs3 t) (hs4 t) (hs5 t) (hs6 t) (hs7 t) (hs8 t) (hs9 t) (hs10 t) ((isFirst_iff t).mpr h0) (iblk m c 0 t) (iblk m c 1 t) (iblk m c 2 t),
   outA10 c (grid0.coords t) (hs0 t) (hs1 t) (hs2 t) (hs3 t) (hs4 t) (hs5 t) (hs6 t) (hs7 t) (hs8 t) (hs9 t) (hs10 t) ((isFirst_iff t).mpr h0) (iblk m c 0 t) (iblk m c 1 t) (iblk m c 2 t))
def outsB (c : Dev nD) (t : Fin cfg0.N) (h0 : ¬t.val % 4 = 0) (xo : Outs F) : Outs F :=
  (outB3 c (grid0.coords t) (hs0 t) (hs1 t) (hs2 t) (hs3 t) (hs4 t) (hs5 t) (hs6 t) (hs7 t) (hs8 t) (hs9 t) (hs10 t) (fun h => h0 ((isFirst_iff t).mp h)) (iblk m c 0 t) (iblk m c 1 t) (iblk m c 2 t) xo.1 xo.2.1 xo.2.2.1 xo.2.2.2.1 xo.2.2.2.2.1 xo.2.2.2.2.2.1 xo.2.2.2.2.2.2.1 xo.2.2.2.2.2.2.2,
   outB4 c (grid0.coords t) (hs0 t) (hs1 t) (hs2 t) (hs3 t) (hs4 t) (hs5 t) (hs6 t) (hs7 t) (hs8 t) (hs9 t) (hs10 t) (fun h => h0 ((isFirst_iff t).mp h)) (iblk m c 0 t) (iblk m c 1 t) (iblk m c 2 t) xo.1 xo.2.1 xo.2.2.1 xo.2.2.2.1 xo.2.2.2.2.1 xo.2.2.2.2.2.1 xo.2.2.2.2.2.2.1 xo.2.2.2.2.2.2.2,
   outB5 c (grid0.coords t) (hs0 t) (hs1 t) (hs2 t) (hs3 t) (hs4 t) (hs5 t) (hs6 t) (hs7 t) (hs8 t) (hs9 t) (hs10 t) (fun h => h0 ((isFirst_iff t).mp h)) (iblk m c 0 t) (iblk m c 1 t) (iblk m c 2 t) xo.1 xo.2.1 xo.2.2.1 xo.2.2.2.1 xo.2.2.2.2.1 xo.2.2.2.2.2.1 xo.2.2.2.2.2.2.1 xo.2.2.2.2.2.2.2,
   outB6 c (grid0.coords t) (hs0 t) (hs1 t) (hs2 t) (hs3 t) (hs4 t) (hs5 t) (hs6 t) (hs7 t) (hs8 t) (hs9 t) (hs10 t) (fun h => h0 ((isFirst_iff t).mp h)) (iblk m c 0 t) (iblk m c 1 t) (iblk m c 2 t) xo.1 xo.2.1 xo.2.2.1 xo.2.2.2.1 xo.2.2.2.2.1 xo.2.2.2.2.2.1 xo.2.2.2.2.2.2.1 xo.2.2.2.2.2.2.2,
   outB7 c (grid0.coords t) (hs0 t) (hs1 t) (hs2 t) (hs3 t) (hs4 t) (hs5 t) (hs6 t) (hs7 t) (hs8 t) (hs9 t) (hs10 t) (fun h => h0 ((isFirst_iff t).mp h)) (iblk m c 0 t) (iblk m c 1 t) (iblk m c 2 t) xo.1 xo.2.1 xo.2.2.1 xo.2.2.2.1 xo.2.2.2.2.1 xo.2.2.2.2.2.1 xo.2.2.2.2.2.2.1 xo.2.2.2.2.2.2.2,
   outB8 c (grid0.coords t) (hs0 t) (hs1 t) (hs2 t) (hs3 t) (hs4 t) (hs5 t) (hs6 t) (hs7 t) (hs8 t) (hs9 t) (hs10 t) (fun h => h0 ((isFirst_iff t).mp h)) (iblk m c 0 t) (iblk m c 1 t) (iblk m c 2 t) xo.1 xo.2.1 xo.2.2.1 xo.2.2.2.1 xo.2.2.2.2.1 xo.2.2.2.2.2.1 xo.2.2.2.2.2.2.1 xo.2.2.2.2.2.2.2,
   outB9 c (grid0.coords t) (hs0 t) (hs1 t) (hs2 t) (hs3 t) (hs4 t) (hs5 t) (hs6 t) (hs7 t) (hs8 t) (hs9 t) (hs10 t) (fun h => h0 ((isFirst_iff t).mp h)) (iblk m c 0 t) (iblk m c 1 t) (iblk m c 2 t) xo.1 xo.2.1 xo.2.2.1 xo.2.2.2.1 xo.2.2.2.2.1 xo.2.2.2.2.2.1 xo.2.2.2.2.2.2.1 xo.2.2.2.2.2.2.2,
   outB10 c (grid0.coords t) (hs0 t) (hs1 t) (hs2 t) (hs3 t) (hs4 t) (hs5 t) (hs6 t) (hs7 t) (hs8 t) (hs9 t) (hs10 t) (fun h => h0 ((isFirst_iff t).mp h)) (iblk m c 0 t) (iblk m c 1 t) (iblk m c 2 t) xo.1 xo.2.1 xo.2.2.1 xo.2.2.2.1 xo.2.2.2.2.1 xo.2.2.2.2.2.1 xo.2.2.2.2.2.2.1 xo.2.2.2.2.2.2.2)

def outsAt (c : Dev nD) : (n : ℕ) → n < cfg0.N → Outs F
  | 0, hn => outsA m c ⟨0, hn⟩ (Nat.zero_mod _)
  | n + 1, hn =>
    if h0 : (n + 1) % 4 = 0 then outsA m c ⟨n + 1, hn⟩ h0
    else outsB m c ⟨n + 1, hn⟩ h0 (outsAt c n (Nat.lt_of_succ_lt hn))

theorem outsAt_A (c : Dev nD) (t : Fin cfg0.N) (h0 : t.val % 4 = 0) : outsAt m c t.val t.isLt = outsA m c t h0 := by
  obtain ⟨_ | n, hn⟩ := t
  · rfl
  · exact dif_pos h0

theorem outsAt_B (c : Dev nD) (t : Fin cfg0.N) (h0 : ¬t.val % 4 = 0) :
    outsAt m c t.val t.isLt = outsB m c t h0 (outsAt m c (t.val - 1) (Nat.lt_of_le_of_lt (Nat.sub_le _ _) t.isLt)) := by
  obtain ⟨_ | n, hn⟩ := t
  · exact absurd (Nat.zero_mod _) h0
  · exact dif_neg h0

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
    | ⟨4, _⟩ => (outsAt m c t.val t.isLt).2.1
    | ⟨5, _⟩ => (outsAt m c t.val t.isLt).2.2.1
    | ⟨6, _⟩ => (outsAt m c t.val t.isLt).2.2.2.1
    | ⟨7, _⟩ => (outsAt m c t.val t.isLt).2.2.2.2.1
    | ⟨8, _⟩ => (outsAt m c t.val t.isLt).2.2.2.2.2.1
    | ⟨9, _⟩ => (outsAt m c t.val t.isLt).2.2.2.2.2.2.1
    | ⟨10, _⟩ => (outsAt m c t.val t.isLt).2.2.2.2.2.2.2
  Φ _ := Pipeline.ΦA spec0 c
  q _ := fullShare
  owed _ := 0

theorem A_eq (c : Dev nD) (w : Fin cfg0.W) : (dats m 0 c).A w = V m c (Pipeline.arrRef spec0 w) := rfl

section
variable (c : Dev nD) (t : Fin cfg0.N)

theorem before0 (d) : (dats m 0 c).before 0 t d = iblk m c 0 t :=
  ((dats m 0 c).before_in_eq_fetched 0 rfl (fun _ => rfl) (fun _ _ _ => rfl) (fun _ => rfl) t d).trans rfl
theorem before1 (d) : (dats m 0 c).before 1 t d = iblk m c 1 t :=
  ((dats m 0 c).before_in_eq_fetched 1 rfl (fun _ => rfl) (fun _ _ _ => rfl) (fun _ => rfl) t d).trans rfl
theorem before2 (d) : (dats m 0 c).before 2 t d = iblk m c 2 t :=
  ((dats m 0 c).before_in_eq_fetched 2 rfl (fun _ => rfl) (fun _ _ _ => rfl) (fun _ => rfl) t d).trans rfl

theorem before_B (h0 : ¬t.val % 4 = 0) (w : Fin cfg0.W) (hfl : ∀ t : Fin cfg0.N, (cfg0.win w).flush t = true ↔ t.val % 4 = 3) {d}
    (hw : (cfg0.win w).isOut = true := by rfl) (hlive : ∀ i, cfg0.idle w i = false := by exact fun _ => rfl)
    (hclip : ∀ (i : cfg0.grid.Coords) a, (cfg0.win w).clip i a = none := by exact fun _ _ => rfl) :
    (dats m 0 c).before w t d = (dats m 0 c).after w ⟨t.val - 1, Nat.lt_of_le_of_lt (Nat.sub_le _ _) t.isLt⟩ :=
  Dat.before_out_kept _ w hw t (by omega)
    (Bool.eq_false_iff.mpr fun h => by have := (hfl _).mp h; dsimp only at this; omega) hlive hclip d

theorem sound_body :
    (iprop((dats m 0 c).Φ t.castSucc ∗ (dats m 0 c).owesAt () t.castSucc
    ∗ (∃ d, owns c (ms0 t) fullShare ((dats m 0 c).before 0 t d))
    ∗ (∃ d, owns c (ms1 t) fullShare ((dats m 0 c).before 1 t d))
    ∗ (∃ d, owns c (ms2 t) fullShare ((dats m 0 c).before 2 t d))
    ∗ (∃ d, owns c (ms3 t) fullShare ((dats m 0 c).before 3 t d))
    ∗ (∃ d, owns c (ms4 t) fullShare ((dats m 0 c).before 4 t d))
    ∗ (∃ d, owns c (ms5 t) fullShare ((dats m 0 c).before 5 t d))
    ∗ (∃ d, owns c (ms6 t) fullShare ((dats m 0 c).before 6 t d))
    ∗ (∃ d, owns c (ms7 t) fullShare ((dats m 0 c).before 7 t d))
    ∗ (∃ d, owns c (ms8 t) fullShare ((dats m 0 c).before 8 t d))
    ∗ (∃ d, owns c (ms9 t) fullShare ((dats m 0 c).before 9 t d))
    ∗ (∃ d, owns c (ms10 t) fullShare ((dats m 0 c).before 10 t d))) : sProp 𝕄)
      ⊢ wp frame (wpE (defs₀ (F := F)) Variants.none c none) Set.univ (bodyAt0 t) (fun _ =>
  iprop((dats m 0 c).Φ t.castSucc ∗ (dats m 0 c).owesAt () t.castSucc
    ∗ owns c (ms0 t) fullShare (iblk m c 0 t)
    ∗ owns c (ms1 t) fullShare (iblk m c 1 t)
    ∗ owns c (ms2 t) fullShare (iblk m c 2 t)
    ∗ owns c (ms3 t) fullShare (outsAt m c t.val t.isLt).1
    ∗ owns c (ms4 t) fullShare (outsAt m c t.val t.isLt).2.1
    ∗ owns c (ms5 t) fullShare (outsAt m c t.val t.isLt).2.2.1
    ∗ owns c (ms6 t) fullShare (outsAt m c t.val t.isLt).2.2.2.1
    ∗ owns c (ms7 t) fullShare (outsAt m c t.val t.isLt).2.2.2.2.1
    ∗ owns c (ms8 t) fullShare (outsAt m c t.val t.isLt).2.2.2.2.2.1
    ∗ owns c (ms9 t) fullShare (outsAt m c t.val t.isLt).2.2.2.2.2.2.1
    ∗ owns c (ms10 t) fullShare (outsAt m c t.val t.isLt).2.2.2.2.2.2.2)) := by
  unfold bodyAt0
  simp only [before0, before1, before2]
  by_cases h0 : t.val % 4 = 0
  · rw [outsAt_A m c t h0]
    unfold outsA outA3 outA4 outA5 outA6 outA7 outA8 outA9 outA10
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRunA c (grid0.coords t) _ _ _ _ _ _ _ _ _ _ _ ((isFirst_iff t).mpr h0) (iblk m c 0 t) (iblk m c 1 t) (iblk m c 2 t)).2.2.2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iintro ⟨H0, H1, H2, ⟨%e3, H3⟩, ⟨%e4, H4⟩, ⟨%e5, H5⟩, ⟨%e6, H6⟩, ⟨%e7, H7⟩, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · ihave H := (Ring.owns_of_writes_tiledL VO3 S128x1.size) $$ H3; iapply H; ipureintro; sl_kernel_rfl
    isplitl [H4]; · ihave H := (Ring.owns_of_writes_tiledL VO4 S128x1.size) $$ H4; iapply H; ipureintro; sl_kernel_rfl
    isplitl [H5]; · ihave H := (Ring.owns_of_writes_tiledL VO5 S128x128.size) $$ H5; iapply H; ipureintro; sl_kernel_rfl
    isplitl [H6]; · ihave H := (Ring.owns_of_writes_tiledL VO6 S128x128.size) $$ H6; iapply H; ipureintro; sl_kernel_rfl
    isplitl [H7]; · ihave H := (Ring.owns_of_writes_tiledL VO7 S128x128.size) $$ H7; iapply H; ipureintro; sl_kernel_rfl
    isplitl [H8]; · ihave H := (Ring.owns_of_writes_tiledL VO8 S128x128.size) $$ H8; iapply H; ipureintro; sl_kernel_rfl
    isplitl [H9]; · ihave H := (Ring.owns_of_writes_tiledL VO9 S128x128.size) $$ H9; iapply H; ipureintro; sl_kernel_rfl
    ihave H := (Ring.owns_of_writes_tiledL VO10 S128x128.size) $$ H10; iapply H; ipureintro; sl_kernel_rfl
  · rw [outsAt_B m c t h0]
    simp only [before_B m c t h0 3 flush0_3, before_B m c t h0 4 flush0_4, before_B m c t h0 5 flush0_5, before_B m c t h0 6 flush0_6, before_B m c t h0 7 flush0_7, before_B m c t h0 8 flush0_8, before_B m c t h0 9 flush0_9, before_B m c t h0 10 flush0_10]
    unfold outsB outB3 outB4 outB5 outB6 outB7 outB8 outB9 outB10
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRunB c (grid0.coords t) _ _ _ _ _ _ _ _ _ _ _ (fun h => h0 ((isFirst_iff t).mp h)) (iblk m c 0 t) (iblk m c 1 t) (iblk m c 2 t) _ _ _ _ _ _ _ _).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iapply owns_writes_unread (hs3 t); iexact H3
    isplitl [H4]; · iapply owns_writes_unread (hs4 t); iexact H4
    isplitl [H5]; · iapply owns_writes_unread (hs5 t); iexact H5
    isplitl [H6]; · iapply owns_writes_unread (hs6 t); iexact H6
    isplitl [H7]; · iapply owns_writes_unread (hs7 t); iexact H7
    isplitl [H8]; · iapply owns_writes_unread (hs8 t); iexact H8
    isplitl [H9]; · iapply owns_writes_unread (hs9 t); iexact H9
    iapply owns_writes_unread (hs10 t); iexact H10

end

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := by
      rw [Pipeline.tailRefs_none spec0 launch0.win.arr_unscoped]
      exact fun ops hops op hop => Pipeline.sub_ucRefs op
        (forall_ops (p := fun op => op.bufs ⊆ StableHlo.tcRefs τ sig) ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub⟩ ops hops op hop))
    (hfresh := forall_ops (by simp only [List.Forall]; repeat' constructor))
    (hkeep := fun ops hops op hop w => tail_keeps_ref ops hops op hop _ (arr_kept w))
    (hmain := Pipeline.hmain_around cfgs 0 defs₀ Variants.none m main [] tailOps (by simp only [List.Forall])
      (by simp only [List.Forall]) main_chain) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans ((dats m 0 c).arrAt_in 0 rfl _),
     ((h c).1 1).trans ((dats m 0 c).arrAt_in 1 rfl _),
     ((h c).1 2).trans ((dats m 0 c).arrAt_in 2 rfl _),
     ((h c).2 main_arg3 (by decide)).trans (tail_arg3 m (dats m) c)⟩) (run_main m ρ)

end Cert.KernelIdeal.Hand

end
-- ==== Proof.SpecSums.lean ====
import Idealize.ShloMosaic.PureOps.Ideal
import Idealize.ShloMosaic.Lib.ValueIdx

noncomputable section

namespace Cert.Spec

open Idealize.ShloMosaic

abbrev SBT : Shape := ⟨2, ![4096, 2048]⟩

abbrev bt (b : Fin 4096) (t : Fin 2048) : SBT.Idx := ValueIdx.ix2 b t

def rowSum (x : SBT.Idx → EReal) (b : Fin 4096) : EReal := ∑ t : Fin 2048, x (bt b t)

def catSum (cat : IVec SBT 32) (v : SBT.Idx → EReal) (b : Fin 4096) (q : ℕ) : EReal :=
  ∑ t : Fin 2048, if (cat (bt b t)).toNat = q then v (bt b t) else 0

def InRange (C : ℕ) (cat : IVec SBT 32) : Prop := ∀ i : SBT.Idx, 0 ≤ (cat i).toInt ∧ (cat i).toInt < C

end Cert.Spec

end
-- ==== Proof.TileSums.lean ====
import proofs.«422984_j51135880626856_3_alg».proof.Proof.SpecSums

noncomputable section

namespace Cert.Spec

open Idealize.ShloMosaic

abbrev SBlk : Shape := ⟨2, ![128, 512]⟩

abbrev pl (p : Fin 128) (l : Fin 512) : SBlk.Idx := ValueIdx.ix2 p l

def tileRow (x : SBlk.Idx → EReal) (p : Fin 128) : EReal := ∑ l : Fin 512, x (pl p l)

def tileCat (cat : IVec SBlk 32) (v : SBlk.Idx → EReal) (p : Fin 128) (q : ℕ) : EReal :=
  ∑ l : Fin 512, if (cat (pl p l)).toNat = q then v (pl p l) else 0

def col (k : Fin 4) (l : Fin 512) : Fin 2048 := ⟨512 * k.val + l.val, by have := k.isLt; have := l.isLt; omega⟩

theorem sum_four_tiles (f : Fin 2048 → EReal) : ∑ t : Fin 2048, f t = ∑ k : Fin 4, ∑ l : Fin 512, f (col k l) := by
  rw [← Finset.sum_product']
  refine (Fintype.sum_equiv ⟨fun kl : Fin 4 × Fin 512 => col kl.1 kl.2,
    fun t => (⟨t.val / 512, by have := t.isLt; omega⟩, ⟨t.val % 512, Nat.mod_lt _ (by norm_num)⟩),
    fun kl => by
      obtain ⟨k, l⟩ := kl
      have hk := k.isLt; have hl := l.isLt
      refine Prod.ext (Fin.ext ?_) (Fin.ext ?_)
      · show (512 * k.val + l.val) / 512 = k.val; omega
      · show (512 * k.val + l.val) % 512 = l.val; omega,
    fun t => Fin.ext (by show 512 * (t.val / 512) + t.val % 512 = t.val; omega)⟩ _ _ (fun kl => rfl)).symm

end Cert.Spec

end
-- ==== Proof.KIVal34.lean ====
import proofs.«422984_j51135880626856_3_alg».proof.Proof.KIFrame
import proofs.«422984_j51135880626856_3_alg».proof.Proof.TileSums
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Spec ValueIdx

variable (c : Dev nD) (i : grid0.Coords)
variable {arg2 : Memref sig .tc .vmem S128x512 .f32} (harg2 : arg2.IsWhole)
variable {arg3 : Memref sig .tc .vmem S128x512 .i32} (harg3 : arg3.IsWhole)
variable {arg4 : Memref sig .tc .vmem S128x512 .i32} (harg4 : arg4.IsWhole)
variable {arg5 : Memref sig .tc .vmem S128x1 .f32} (harg5 : arg5.IsWhole)
variable {arg6 : Memref sig .tc .vmem S128x1 .f32} (harg6 : arg6.IsWhole)
variable {arg7 : Memref sig .tc .vmem S128x128 .f32} (harg7 : arg7.IsWhole)
variable {arg8 : Memref sig .tc .vmem S128x128 .f32} (harg8 : arg8.IsWhole)
variable {arg9 : Memref sig .tc .vmem S128x128 .f32} (harg9 : arg9.IsWhole)
variable {arg10 : Memref sig .tc .vmem S128x128 .f32} (harg10 : arg10.IsWhole)
variable {arg11 : Memref sig .tc .vmem S128x128 .f32} (harg11 : arg11.IsWhole)
variable {arg12 : Memref sig .tc .vmem S128x128 .f32} (harg12 : arg12.IsWhole)
variable (x0 : Vec Ideal S128x512 .f32) (x1 x2 : Vec Ideal S128x512 .i32)
variable (xo5 : Vec Ideal S128x1 .f32)
variable (xo6 : Vec Ideal S128x1 .f32)
variable (xo7 : Vec Ideal S128x128 .f32)
variable (xo8 : Vec Ideal S128x128 .f32)
variable (xo9 : Vec Ideal S128x128 .f32)
variable (xo10 : Vec Ideal S128x128 .f32)
variable (xo11 : Vec Ideal S128x128 .f32)
variable (xo12 : Vec Ideal S128x128 .f32)

theorem hz00 : (![0, 0] : Fin 2 → Nat) = fun _ => 0 := funext fun a => by fin_cases a <;> rfl

theorem rowReduce_apply (v : FVec Ideal S128x512 .f32) (p : Fin 128) :
    shapeCast S128x1 (multiReduction (F := Ideal) .add [1] S128 v 0x00000000#32 reduces_S128x512_S128 (.inl rfl) rfl) shapeCasts_S128_S128x1 (ix2 p 0)
      = tileRow v p := by
  refine (shapeCast_apply _ _ (ix2 p (0 : Fin 1)) (ix1 p) ?_).trans ?_
  · rw [Shape.rowMajor_val_one, Shape.rowMajor_val_two]
    show p.val = p.val * 1 + 0
    omega
  · refine (Ideal.multiReduction_add_single v _ reduces_S128x512_S128 (.inl rfl) rfl (ix1 p)).trans ?_
    unfold tileRow
    exact Finset.sum_congr rfl fun k _ => congrArg v (funext fun a => match a with | ⟨0, _⟩ => rfl | ⟨1, _⟩ => rfl)

theorem pay11_apply (v3 : Vec Ideal S128x512 .f32) (v5 : Vec Ideal S128x1 .f32) (p : Fin 128) :
    k0_pay11 (F := Ideal) v3 v5 (ix2 p 0) = v5 (ix2 p 0) + tileRow v3 p := by
  unfold k0_pay11
  refine (addf_apply _ _ _).trans ?_
  refine congrArg₂ (· + ·) ?_ (rowReduce_apply v3 p)
  exact congrFun (shapeCast_self v5 _) _

theorem pay12_apply (v3 : Vec Ideal S128x512 .f32) (v11 : Vec Ideal S128x1 .f32) (p : Fin 128) :
    k0_pay12 (F := Ideal) v3 v11 (ix2 p 0) = v11 (ix2 p 0) + tileRow (fun j => v3 j * v3 j) p := by
  unfold k0_pay12 k0_pay10
  refine (addf_apply _ _ _).trans ?_
  refine congrArg₂ (· + ·) ?_ (rowReduce_apply (mulf v3 v3) p)
  exact congrFun (shapeCast_self v11 _) _

theorem pay2_apply (j : S128x1.Idx) : k0_pay2 (F := Ideal) j = 0 := Ideal.ofBits_zero_f32

theorem pay3_apply (j : S128x1.Idx) : k0_pay3 (F := Ideal) j = 0 := Ideal.ofBits_zero_f32

theorem canonA3 (hA : isFirst i) :
    View.canon (kernelRunA (F := Ideal) c i harg2 harg3 harg4 harg5 harg6 harg7 harg8 harg9 harg10 harg11 harg12 hA x0 x1 x2).1 = k0_pay11 x0 (k0_pay2 (F := Ideal)) := by
  unfold kernelRunA
  dsimp only
  sl_unfold_words
  rw [View.canon_cons_unit_zero (S := S128x1) hz00, View.readCov_unit_zero (S := S128x1) _ hz00]
  simp only [View.readAt_eq_ld, harg2.read_unread, View.ld_unit_zero (S := S128x512) hz00]

theorem canonA4 (hA : isFirst i) :
    View.canon (kernelRunA (F := Ideal) c i harg2 harg3 harg4 harg5 harg6 harg7 harg8 harg9 harg10 harg11 harg12 hA x0 x1 x2).2.1 = k0_pay12 x0 (k0_pay3 (F := Ideal)) := by
  unfold kernelRunA
  dsimp only
  sl_unfold_words
  rw [View.canon_cons_unit_zero (S := S128x1) hz00, View.readCov_unit_zero (S := S128x1) _ hz00]
  simp only [View.readAt_eq_ld, harg2.read_unread, View.ld_unit_zero (S := S128x512) hz00]

theorem coverB3 (hB : ¬isFirst i) (y : S128x1.Idx) :
    ∃ pc ∈ (kernelRunB (F := Ideal) c i harg2 harg3 harg4 harg5 harg6 harg7 harg8 harg9 harg10 harg11 harg12 hB x0 x1 x2 xo5 xo6 xo7 xo8 xo9 xo10 xo11 xo12).1, y ∈ pc.1.set :=
  View.cover_of_tiledL _ S128x1.size (by sl_kernel_rfl) y

theorem coverB4 (hB : ¬isFirst i) (y : S128x1.Idx) :
    ∃ pc ∈ (kernelRunB (F := Ideal) c i harg2 harg3 harg4 harg5 harg6 harg7 harg8 harg9 harg10 harg11 harg12 hB x0 x1 x2 xo5 xo6 xo7 xo8 xo9 xo10 xo11 xo12).2.1, y ∈ pc.1.set :=
  View.cover_of_tiledL _ S128x1.size (by sl_kernel_rfl) y

theorem canonB3 (hB : ¬isFirst i) :
    View.canon (kernelRunB (F := Ideal) c i harg2 harg3 harg4 harg5 harg6 harg7 harg8 harg9 harg10 harg11 harg12 hB x0 x1 x2 xo5 xo6 xo7 xo8 xo9 xo10 xo11 xo12).1 = k0_pay11 x0 xo5 := by
  unfold kernelRunB
  dsimp only
  sl_unfold_words
  rw [View.canon_unit_zero (S := S128x1) hz00]
  simp only [View.readAt_eq_ld, harg2.read_unread, harg5.read_unread, View.ld_unit_zero (S := S128x512) hz00,
    View.ld_unit_zero (S := S128x1) hz00]

theorem canonB4 (hB : ¬isFirst i) :
    View.canon (kernelRunB (F := Ideal) c i harg2 harg3 harg4 harg5 harg6 harg7 harg8 harg9 harg10 harg11 harg12 hB x0 x1 x2 xo5 xo6 xo7 xo8 xo9 xo10 xo11 xo12).2.1 = k0_pay12 x0 xo6 := by
  unfold kernelRunB
  dsimp only
  sl_unfold_words
  rw [View.canon_unit_zero (S := S128x1) hz00]
  simp only [View.readAt_eq_ld, harg2.read_unread, harg6.read_unread, View.ld_unit_zero (S := S128x512) hz00,
    View.ld_unit_zero (S := S128x1) hz00]

theorem outA3_apply (hA : isFirst i) (p : Fin 128) : outA3 (F := Ideal) c i harg2 harg3 harg4 harg5 harg6 harg7 harg8 harg9 harg10 harg11 harg12 hA x0 x1 x2 (ix2 p 0) = tileRow x0 p := by
  unfold outA3
  rw [View.read_writes_eq_canon _ _ _ (coverA3 (F := Ideal) _ _ _ _ _ _ _ _ _ _ _ _ _ _ _ _ _), canonA3]
  refine (pay11_apply x0 (k0_pay2 (F := Ideal)) p).trans ?_
  rw [pay2_apply, zero_add]
theorem outB3_apply (hB : ¬isFirst i) (p : Fin 128) : outB3 (F := Ideal) c i harg2 harg3 harg4 harg5 harg6 harg7 harg8 harg9 harg10 harg11 harg12 hB x0 x1 x2 xo5 xo6 xo7 xo8 xo9 xo10 xo11 xo12 (ix2 p 0) = xo5 (ix2 p 0) + tileRow x0 p := by
  unfold outB3
  rw [View.read_writes_eq_canon _ _ _ (coverB3 _ _ _ _ _ _ _ _ _ _ _ _ _ _ _ _ _ _ _ _ _ _ _ _ _), canonB3]
  exact pay11_apply x0 xo5 p
theorem outA4_apply (hA : isFirst i) (p : Fin 128) : outA4 (F := Ideal) c i harg2 harg3 harg4 harg5 harg6 harg7 harg8 harg9 harg10 harg11 harg12 hA x0 x1 x2 (ix2 p 0) = tileRow (fun j => x0 j * x0 j) p := by
  unfold outA4
  rw [View.read_writes_eq_canon _ _ _ (coverA4 (F := Ideal) _ _ _ _ _ _ _ _ _ _ _ _ _ _ _ _ _), canonA4]
  refine (pay12_apply x0 (k0_pay3 (F := Ideal)) p).trans ?_
  rw [pay3_apply, zero_add]
theorem outB4_apply (hB : ¬isFirst i) (p : Fin 128) : outB4 (F := Ideal) c i harg2 harg3 harg4 harg5 harg6 harg7 harg8 harg9 harg10 harg11 harg12 hB x0 x1 x2 xo5 xo6 xo7 xo8 xo9 xo10 xo11 xo12 (ix2 p 0) = xo6 (ix2 p 0) + tileRow (fun j => x0 j * x0 j) p := by
  unfold outB4
  rw [View.read_writes_eq_canon _ _ _ (coverB4 _ _ _ _ _ _ _ _ _ _ _ _ _ _ _ _ _ _ _ _ _ _ _ _ _), canonB4]
  exact pay12_apply x0 xo6 p

end Cert.KernelIdeal.Hand

end
-- ==== Proof.KIValCat.lean ====
import proofs.«422984_j51135880626856_3_alg».proof.Proof.KIFrame
import proofs.«422984_j51135880626856_3_alg».proof.Proof.TileSums
import Idealize.ShloMosaic.Lib.ValueIdx
import Idealize.ShloMosaic.Lib.ValueLayout
import Idealize.ShloMosaic.Lib.Pipeline.Value
import Idealize.ShloMosaic.Lib.Affine
import Idealize.ShloMosaic.Lib.IdealHost
import Idealize.ShloMosaic.PureOps.Ideal.Laws

set_option maxRecDepth 16384

noncomputable section

namespace Cert.KernelIdeal.Hand.Cat

open Cert.KernelIdeal Cert.KernelIdeal.Gen
open Idealize.ShloMosaic Idealize.ShloMosaic.ValueIdx Cert.Spec

abbrev ccol (o : ℕ) (ho : o + 32 ≤ 512) (g : Fin 32) : Fin 512 := ⟨o + g.val, by have := g.isLt; omega⟩

theorem chunk_read {α : Type} {C : ℕ} (X : (⟨2, ![128, 512]⟩ : Shape).Idx → α) (o : ℕ)
    (hs : (⟨2, ![128, 512]⟩ : Shape).Slices ![0, o] ⟨2, ![128, 32]⟩)
    (hsc : (⟨2, ![128, 32]⟩ : Shape).ShapeCasts ⟨3, ![128, 32, 1]⟩)
    (hb : (⟨3, ![128, 32, 1]⟩ : Shape).Broadcasts ⟨3, ![128, 32, C]⟩)
    (p : Fin 128) (g : Fin 32) (q : Fin C) :
    broadcastTo ⟨3, ![128, 32, C]⟩ (shapeCast ⟨3, ![128, 32, 1]⟩ (extractStridedSlice ⟨2, ![128, 32]⟩ ![0, o] X hs) hsc) hb (ix3 p g q)
      = X (ix2 p (ccol o (hs.2 1) g)) := by
  refine (broadcastTo_apply _ hb (ix3 p g q) (ix3 p g (⟨0, Nat.one_pos⟩ : Fin 1)) (fun a => ?_)).trans ?_
  · match a with
    | ⟨0, _⟩ => exact (if_neg (show ¬(128 : ℕ) = 1 by decide)).symm
    | ⟨1, _⟩ => exact (if_neg (show ¬(32 : ℕ) = 1 by decide)).symm
    | ⟨2, _⟩ => exact (if_pos rfl).symm
  refine (shapeCast_apply _ hsc (ix3 p g (⟨0, Nat.one_pos⟩ : Fin 1)) (ix2 p g) ?_).trans ?_
  · rw [Shape.rowMajor_val_two, Shape.rowMajor_val_three]
    show p.val * 32 + g.val = (p.val * 32 + g.val) * 1 + 0
    omega
  exact slice2_axis1_eq o X hs p g

theorem word_eq_ofNat_iff (x : BitVec 32) (q : ℕ) (hq : q < 2 ^ 32) : x = BitVec.ofNat 32 q ↔ x.toNat = q := by
  rw [← BitVec.toNat_inj, BitVec.toNat_ofNat, Nat.mod_eq_of_lt hq]

theorem chunk_apply {C : ℕ} (hC : C < 2 ^ 32) (cat : IVec ⟨2, ![128, 512]⟩ 32) (o : ℕ)
    (hs : (⟨2, ![128, 512]⟩ : Shape).Slices ![0, o] ⟨2, ![128, 32]⟩)
    (hsc : (⟨2, ![128, 32]⟩ : Shape).ShapeCasts ⟨3, ![128, 32, 1]⟩)
    (hb : (⟨3, ![128, 32, 1]⟩ : Shape).Broadcasts ⟨3, ![128, 32, C]⟩)
    (hi : (⟨3, ![128, 32, C]⟩ : Shape).Iotas .tc 32 [2])
    (hr : (⟨3, ![128, 32, C]⟩ : Shape).Reduces [1] ⟨2, ![128, C]⟩) (hφ : FKind.Formats .f32)
    (hacc : (0x00000000#32 : BitVec 32) = 0x00000000#32)
    (X Z : FVec Ideal ⟨3, ![128, 32, C]⟩ .f32) (p : Fin 128) (q : Fin C) :
    multiReduction .add [1] ⟨2, ![128, C]⟩
        (select (cmpi .eq (broadcastTo ⟨3, ![128, 32, C]⟩ (shapeCast ⟨3, ![128, 32, 1]⟩ (extractStridedSlice ⟨2, ![128, 32]⟩ ![0, o] cat hs) hsc) hb)
          (iota .tc ⟨3, ![128, 32, C]⟩ 32 [2] hi)) X Z) 0x00000000#32 hr hφ hacc (ix2 p q)
      = ∑ g : Fin 32, if (cat (ix2 p (ccol o (hs.2 1) g))).toNat = q.val then X (ix3 p g q) else Z (ix3 p g q) := by
  refine (Ideal.multiReduction_add_single _ _ hr hφ hacc (ix2 p q)).trans ?_
  show ∑ g : Fin 32, _ = _
  refine Finset.sum_congr rfl fun g _ => ?_
  have hl : hr.lift (ix2 p q) g = ix3 p g q := by
    funext a
    match a with
    | ⟨0, _⟩ => rfl
    | ⟨1, _⟩ => rfl
    | ⟨2, _⟩ => rfl
  rw [hl]
  show Scalar.select (IntOp.cmpi .eq _ (iota .tc ⟨3, ![128, 32, C]⟩ 32 [2] hi (ix3 p g q))) (X (ix3 p g q)) (Z (ix3 p g q)) = _
  rw [chunk_read cat o hs hsc hb p g q, iota_single_apply]
  unfold Scalar.select
  refine if_congr ?_ rfl rfl
  refine IntOp.cmpi_eq.trans ?_
  exact word_eq_ofNat_iff _ q.val (lt_trans q.isLt hC)

def part (f : Fin 512 → EReal) (n : ℕ) (h : n ≤ 512) : EReal := ∑ i : Fin n, f (Fin.castLE h i)

theorem part_succ (f : Fin 512 → EReal) (o n : ℕ) (hn : n = o + 32) (h : n ≤ 512) :
    part f n h = part f o (by omega) + ∑ g : Fin 32, f (ccol o (by omega) g) := by
  subst hn
  exact Fin.sum_univ_add _

theorem sum_chunks (f : Fin 512 → EReal) (z : EReal) :
    z + (0 + (∑ g : Fin 32, f (ccol 0 (by omega) g)) + (∑ g : Fin 32, f (ccol 32 (by omega) g)) + (∑ g : Fin 32, f (ccol 64 (by omega) g)) + (∑ g : Fin 32, f (ccol 96 (by omega) g))
        + (∑ g : Fin 32, f (ccol 128 (by omega) g)) + (∑ g : Fin 32, f (ccol 160 (by omega) g)) + (∑ g : Fin 32, f (ccol 192 (by omega) g)) + (∑ g : Fin 32, f (ccol 224 (by omega) g))
        + (∑ g : Fin 32, f (ccol 256 (by omega) g)) + (∑ g : Fin 32, f (ccol 288 (by omega) g)) + (∑ g : Fin 32, f (ccol 320 (by omega) g)) + (∑ g : Fin 32, f (ccol 352 (by omega) g))
        + (∑ g : Fin 32, f (ccol 384 (by omega) g)) + (∑ g : Fin 32, f (ccol 416 (by omega) g)) + (∑ g : Fin 32, f (ccol 448 (by omega) g)) + (∑ g : Fin 32, f (ccol 480 (by omega) g))) = z + ∑ l : Fin 512, f l := by
  rw [show ∑ l : Fin 512, f l = part f 512 le_rfl from rfl, part_succ f 480 512 rfl, part_succ f 448 480 rfl, part_succ f 416 448 rfl,
    part_succ f 384 416 rfl, part_succ f 352 384 rfl, part_succ f 320 352 rfl, part_succ f 288 320 rfl, part_succ f 256 288 rfl,
    part_succ f 224 256 rfl, part_succ f 192 224 rfl, part_succ f 160 192 rfl, part_succ f 128 160 rfl, part_succ f 96 128 rfl,
    part_succ f 64 96 rfl, part_succ f 32 64 rfl, part_succ f 0 32 rfl, show part f 0 (Nat.zero_le _) = 0 from Fin.sum_univ_zero _]

section Terms
variable {F : FTy → Type} [FloatOps F]

def cnt100 (x : Vec F S128x512 .i32) (I : IVec S128x32x100 32) (Z : Vec F S128x100 .f32) : FVec F S128x100 .f32 :=
  k0_pay75 (k0_pay68 x I (k0_pay65 x I (k0_pay57 x I (k0_pay50 x I (k0_pay43 x I (k0_pay37 x I (k0_pay28 x I (k0_pay21 x k0_pay13 I (k0_pay19 x)) (k0_pay26 x I) (FloatOps.ofBits .f32 1065353216#32)) (k0_pay31 x))))))) (k0_pay74 x I) Z

def sum100 (a : Vec F S128x512 .f32) (x : Vec F S128x512 .i32) (I : IVec S128x32x100 32) (Z : Vec F S128x100 .f32) : FVec F S128x100 .f32 :=
  k0_pay76 (k0_pay69 a x I (k0_pay61 a x I (k0_pay53 a x I (k0_pay51 a x I (k0_pay44 a x I (k0_pay38 a x I (k0_pay29 a x I (k0_pay22 a x k0_pay14 I (k0_pay16 a) (k0_pay18 x)) (k0_pay24 a) (k0_pay26 x I)) (k0_pay31 x) (k0_pay32 a))))) (k0_pay56 x I) (k0_pay58 a) k0_pay59) (k0_pay64 x I) (k0_pay66 a)) (k0_pay71 a) (k0_pay73 x I) Z

def sq100 (b : Vec F S128x512 .f32) (a : FVec F S128x512 .f32) (x : Vec F S128x512 .i32) (I : IVec S128x32x100 32) (Z : Vec F S128x100 .f32) : FVec F S128x100 .f32 :=
  k0_pay77 (k0_pay70 a x I (k0_pay62 a x I (k0_pay54 a x I (k0_pay47 a x I (k0_pay41 a x I (k0_pay35 I (k0_pay30 a x I (k0_pay23 a x k0_pay15 I (k0_pay17 b) (k0_pay18 x)) (k0_pay25 a) (k0_pay26 x I)) (k0_pay31 x) (k0_pay33 a)) (k0_pay39 a x I)) (k0_pay42 x I) (FloatOps.ofBits .f32 0#32) (k0_pay45 a)) (k0_pay48 a) (k0_pay49 x I)) (k0_pay55 a) (k0_pay56 x I)) (k0_pay63 a) (k0_pay64 x I)) (k0_pay72 a) (k0_pay73 x I) Z

def cnt50 (x : Vec F S128x512 .i32) (I : IVec S128x32x50 32) (Z : Vec F S128x50 .f32) : FVec F S128x50 .f32 :=
  k0_pay141 I (k0_pay133 x I (k0_pay125 x I (k0_pay117 x I (k0_pay114 x I (k0_pay107 x I (k0_pay99 x I (k0_pay93 x I (k0_pay86 x k0_pay78 I (k0_pay83 x)) (k0_pay89 x)))))) (k0_pay123 x I)) (k0_pay130 x I) (FloatOps.ofBits .f32 0#32) k0_pay131) (k0_pay138 x) Z

def sum50 (a : Vec F S128x512 .f32) (x : Vec F S128x512 .i32) (I : IVec S128x32x50 32) (Z : Vec F S128x50 .f32) : FVec F S128x50 .f32 :=
  k0_pay142 I (k0_pay134 a x I (k0_pay126 a x I (k0_pay118 a x I (k0_pay110 a x I (k0_pay103 a x I (k0_pay100 a x I (k0_pay94 a x I (k0_pay87 a x k0_pay79 I (k0_pay81 a) (k0_pay83 x)) (k0_pay89 x)))) (k0_pay108 a x I)) (k0_pay113 x I) (FloatOps.ofBits .f32 0#32) (k0_pay115 a)) (k0_pay120 a) (k0_pay122 x I)) (k0_pay128 a) (k0_pay130 x I)) (k0_pay136 a) (k0_pay138 x) Z

def sq50 (a : FVec F S128x512 .f32) (x : Vec F S128x512 .i32) (I : IVec S128x32x50 32) (Z : Vec F S128x50 .f32) : FVec F S128x50 .f32 :=
  k0_pay1 (k0_pay140 I (k0_pay135 a x I (k0_pay127 a x I (k0_pay119 a x I (k0_pay111 a x I (k0_pay104 a x I (k0_pay97 a x I (k0_pay91 a I (k0_pay88 a x k0_pay80 I (k0_pay82 a) (k0_pay83 x)) (k0_pay89 x)) (k0_pay95 a x I)) (k0_pay98 x I) (k0_pay101 a) (FloatOps.ofBits .f32 0#32)) (k0_pay105 a) (k0_pay106 x I)) (k0_pay112 a) (k0_pay113 x I)) (k0_pay121 a) (k0_pay122 x I)) (k0_pay129 a) (k0_pay130 x I)) (k0_pay137 a) (k0_pay138 x)) Z

end Terms

theorem ofBits_zero' : (FloatOps.ofBits .f32 0x00000000#32 : Ideal .f32) = 0 := Ideal.ofBits_zero_f32
theorem ofBits_one' : (FloatOps.ofBits .f32 0x3F800000#32 : Ideal .f32) = 1 := Ideal.ofBits_one_f32

section Chains
variable (a : Vec Ideal S128x512 .f32) (x : Vec Ideal S128x512 .i32) (p : Fin 128)

theorem cnt100_apply (Z : Vec Ideal S128x100 .f32) (q : Fin 100) :
    cnt100 (F := Ideal) x (iota .tc S128x32x100 32 [2] iota_S128x32x100_d2_w32) Z (ix2 p q) = Z (ix2 p q) + tileCat x (fun _ => 1) p q.val := by
  simp only [cnt100, k0_pay13, k0_pay18, k0_pay19, k0_pay20, k0_pay21, k0_pay26, k0_pay27, k0_pay28, k0_pay31, k0_pay34, k0_pay36, k0_pay37, k0_pay40, k0_pay42, k0_pay43, k0_pay46, k0_pay49, k0_pay50, k0_pay52, k0_pay56, k0_pay57, k0_pay60, k0_pay64, k0_pay65, k0_pay67, k0_pay68, k0_pay73, k0_pay74, k0_pay75, addf_apply, shapeCast_self, chunk_apply (C := 100) (by norm_num), broadcast_apply, ofBits_zero', ofBits_one']
  exact sum_chunks (fun l => if (x (ix2 p l)).toNat = q.val then (1 : EReal) else 0) _

theorem sum100_apply (Z : Vec Ideal S128x100 .f32) (q : Fin 100) :
    sum100 (F := Ideal) a x (iota .tc S128x32x100 32 [2] iota_S128x32x100_d2_w32) Z (ix2 p q) = Z (ix2 p q) + tileCat x a p q.val := by
  simp only [sum100, k0_pay14, k0_pay16, k0_pay18, k0_pay20, k0_pay22, k0_pay24, k0_pay26, k0_pay27, k0_pay29, k0_pay31, k0_pay32, k0_pay34, k0_pay36, k0_pay38, k0_pay40, k0_pay42, k0_pay44, k0_pay46, k0_pay49, k0_pay51, k0_pay52, k0_pay53, k0_pay56, k0_pay58, k0_pay59, k0_pay60, k0_pay61, k0_pay64, k0_pay66, k0_pay67, k0_pay69, k0_pay71, k0_pay73, k0_pay76, addf_apply, shapeCast_self, chunk_apply (C := 100) (by norm_num), chunk_read, broadcast_apply, ofBits_zero']
  exact sum_chunks (fun l => if (x (ix2 p l)).toNat = q.val then a (ix2 p l) else 0) _

theorem sq100_apply (Z : Vec Ideal S128x100 .f32) (q : Fin 100) :
    sq100 (F := Ideal) a (k0_pay10 a) x (iota .tc S128x32x100 32 [2] iota_S128x32x100_d2_w32) Z (ix2 p q) = Z (ix2 p q) + tileCat x (fun j => a j * a j) p q.val := by
  simp only [sq100, k0_pay10, k0_pay15, k0_pay17, k0_pay18, k0_pay20, k0_pay23, k0_pay25, k0_pay26, k0_pay27, k0_pay30, k0_pay31, k0_pay33, k0_pay34, k0_pay35, k0_pay36, k0_pay39, k0_pay40, k0_pay41, k0_pay42, k0_pay45, k0_pay46, k0_pay47, k0_pay48, k0_pay49, k0_pay52, k0_pay54, k0_pay55, k0_pay56, k0_pay60, k0_pay62, k0_pay63, k0_pay64, k0_pay67, k0_pay70, k0_pay72, k0_pay73, k0_pay77, addf_apply, mulf_apply, shapeCast_self, chunk_apply (C := 100) (by norm_num), chunk_read, broadcast_apply, ofBits_zero']
  exact sum_chunks (fun l => if (x (ix2 p l)).toNat = q.val then a (ix2 p l) * a (ix2 p l) else 0) _

theorem cnt50_apply (Z : Vec Ideal S128x50 .f32) (q : Fin 50) :
    cnt50 (F := Ideal) x (iota .tc S128x32x50 32 [2] iota_S128x32x50_d2_w32) Z (ix2 p q) = Z (ix2 p q) + tileCat x (fun _ => 1) p q.val := by
  simp only [cnt50, k0_pay78, k0_pay83, k0_pay84, k0_pay85, k0_pay86, k0_pay89, k0_pay90, k0_pay92, k0_pay93, k0_pay96, k0_pay98, k0_pay99, k0_pay102, k0_pay106, k0_pay107, k0_pay109, k0_pay113, k0_pay114, k0_pay116, k0_pay117, k0_pay122, k0_pay123, k0_pay124, k0_pay125, k0_pay130, k0_pay131, k0_pay132, k0_pay133, k0_pay138, k0_pay139, k0_pay141, addf_apply, shapeCast_self, chunk_apply (C := 50) (by norm_num), broadcast_apply, ofBits_zero', ofBits_one']
  exact sum_chunks (fun l => if (x (ix2 p l)).toNat = q.val then (1 : EReal) else 0) _

theorem sum50_apply (Z : Vec Ideal S128x50 .f32) (q : Fin 50) :
    sum50 (F := Ideal) a x (iota .tc S128x32x50 32 [2] iota_S128x32x50_d2_w32) Z (ix2 p q) = Z (ix2 p q) + tileCat x a p q.val := by
  simp only [sum50, k0_pay79, k0_pay81, k0_pay83, k0_pay84, k0_pay85, k0_pay87, k0_pay89, k0_pay90, k0_pay92, k0_pay94, k0_pay96, k0_pay98, k0_pay100, k0_pay102, k0_pay103, k0_pay106, k0_pay108, k0_pay109, k0_pay110, k0_pay113, k0_pay115, k0_pay116, k0_pay118, k0_pay120, k0_pay122, k0_pay124, k0_pay126, k0_pay128, k0_pay130, k0_pay132, k0_pay134, k0_pay136, k0_pay138, k0_pay139, k0_pay142, addf_apply, shapeCast_self, chunk_apply (C := 50) (by norm_num), chunk_read, broadcast_apply, ofBits_zero']
  exact sum_chunks (fun l => if (x (ix2 p l)).toNat = q.val then a (ix2 p l) else 0) _

theorem sq50_apply (Z : Vec Ideal S128x50 .f32) (q : Fin 50) :
    sq50 (F := Ideal) (k0_pay10 a) x (iota .tc S128x32x50 32 [2] iota_S128x32x50_d2_w32) Z (ix2 p q) = Z (ix2 p q) + tileCat x (fun j => a j * a j) p q.val := by
  simp only [sq50, k0_pay10, k0_pay1, k0_pay80, k0_pay82, k0_pay83, k0_pay84, k0_pay85, k0_pay88, k0_pay89, k0_pay90, k0_pay91, k0_pay92, k0_pay95, k0_pay96, k0_pay97, k0_pay98, k0_pay101, k0_pay102, k0_pay104, k0_pay105, k0_pay106, k0_pay109, k0_pay111, k0_pay112, k0_pay113, k0_pay116, k0_pay119, k0_pay121, k0_pay122, k0_pay124, k0_pay127, k0_pay129, k0_pay130, k0_pay132, k0_pay135, k0_pay137, k0_pay138, k0_pay139, k0_pay140, addf_apply, mulf_apply, shapeCast_self, chunk_apply (C := 50) (by norm_num), chunk_read, broadcast_apply, ofBits_zero']
  exact sum_chunks (fun l => if (x (ix2 p l)).toNat = q.val then a (ix2 p l) * a (ix2 p l) else 0) _

end Chains

theorem hz2 : (![0, 0] : Fin 2 → Nat) = fun _ => 0 := funext fun a => by fin_cases a <;> rfl

section Pieces
variable {Val : EltTy → Type} {C : ℕ} (inb : ∀ a, (![0, 0] : Fin 2 → Nat) a + (![128, C] : Fin 2 → Nat) a ≤ S128x128.size a)

theorem emb_first (p q : Fin 128) (h : q.val < C) :
    (Rect.unit ![0, 0] ![128, C] inb).emb (ix2 p (⟨q.val, h⟩ : Fin C)) = (ix2 p q : S128x128.Idx) := by
  funext a
  apply Fin.ext
  match a with
  | ⟨0, _⟩ => show 0 + 1 * p.val = p.val; omega
  | ⟨1, _⟩ => show 0 + 1 * q.val = q.val; omega

-- After a write list headed by the first C columns, index (p, q) reads the head's payload when q < C, else what the tail leaves.
theorem read_first {sig : RefSig} {κ : Kind} {sp : Space} (v : View sig κ sp S128x128 .f32) (f : v.ty.Contents Val)
    (w : (⟨2, ![128, C]⟩ : Shape).Idx → Val .f32) (L : List (View.Piece Val S128x128 .f32)) (p q : Fin 128) (s t : Val .f32)
    (hs : ∀ h : q.val < C, w (ix2 p (⟨q.val, h⟩ : Fin C)) = s) (ht : v.read Val (v.writes Val f L) (ix2 p q) = t) :
    v.read Val (v.writes Val f (⟨Rect.unit ![0, 0] ![128, C] inb, w⟩ :: L)) (ix2 p q) = if q.val < C then s else t := by
  by_cases h : q.val < C
  · rw [if_pos h, ← hs h, ← emb_first inb p q h]
    exact View.read_writes_cons_emb v f (Rect.unit ![0, 0] ![128, C] inb : Rect S128x128) w L _
  · rw [if_neg h, ← ht]
    refine View.read_slice_write_of_not_mem _ _ _ _ ?_
    rw [Rect.map_emb_univ, Rect.mem_set_unit]
    exact fun hm => h (lt_of_lt_of_eq (hm 1).2 (Nat.zero_add C))

theorem ld_first (X : S128x128.Idx → Val .f32) (p q : Fin 128) (h : q.val < C) :
    View.ld X (Rect.unit ![0, 0] ![128, C] inb) (ix2 p (⟨q.val, h⟩ : Fin C)) = X (ix2 p q) :=
  congrArg X (emb_first inb p q h)

theorem read_fill [∀ e, Nonempty (Val e)] {sig : RefSig} {κ : Kind} {sp : Space} (v : View sig κ sp S128x128 .f32)
    (inb2 : ∀ a, (![0, 0] : Fin 2 → Nat) a + S128x128.size a ≤ S128x128.size a) (w : S128x128.Idx → Val .f32) (y : S128x128.Idx) :
    v.read Val (v.writes Val v.junk [⟨Rect.unit ![0, 0] S128x128.size inb2, w⟩]) y = w y :=
  (View.read_writes_junk_apply_eq_canon v y _).trans (congrFun (View.canon_unit_zero hz2 inb2 w) y)

end Pieces

theorem pay4_apply (j : S128x128.Idx) : k0_pay4 (F := Ideal) j = 0 := ofBits_zero'
theorem pay5_apply (j : S128x128.Idx) : k0_pay5 (F := Ideal) j = 0 := ofBits_zero'
theorem pay6_apply (j : S128x128.Idx) : k0_pay6 (F := Ideal) j = 0 := ofBits_zero'
theorem pay7_apply (j : S128x128.Idx) : k0_pay7 (F := Ideal) j = 0 := ofBits_zero'
theorem pay8_apply (j : S128x128.Idx) : k0_pay8 (F := Ideal) j = 0 := ofBits_zero'
theorem pay9_apply (j : S128x128.Idx) : k0_pay9 (F := Ideal) j = 0 := ofBits_zero'

theorem readCov_zero {sig : RefSig} {κ : Kind} {sp : Space} (v : View sig κ sp S128x128 .f32)
    (inb2 : ∀ a, (![0, 0] : Fin 2 → Nat) a + S128x128.size a ≤ S128x128.size a) (w2 : S128x128.Idx → Elt Ideal .f32) (hw : ∀ j, w2 j = 0)
    (B : LoadRect S128x128) (j : B.shape.Idx) :
    v.readCov [(⟨Rect.unit ![0, 0] S128x128.size inb2, w2⟩ : View.Piece (Elt Ideal) S128x128 .f32)] B j = 0 := by
  rw [View.readCov_eq_canon']
  show View.canon _ (B.idx j) = 0
  rw [View.canon_unit_zero hz2]
  exact hw _

end Cert.KernelIdeal.Hand.Cat

namespace Cert.KernelIdeal.Hand

open Cert.KernelIdeal Cert.KernelIdeal.Gen Cert.Spec Cat
open Idealize.ShloMosaic Idealize.ShloMosaic.Tactic ValueIdx

variable (c : Dev nD) (i : grid0.Coords)
variable {arg2 : Memref sig .tc .vmem S128x512 .f32} (harg2 : arg2.IsWhole)
variable {arg3 : Memref sig .tc .vmem S128x512 .i32} (harg3 : arg3.IsWhole)
variable {arg4 : Memref sig .tc .vmem S128x512 .i32} (harg4 : arg4.IsWhole)
variable {arg5 : Memref sig .tc .vmem S128x1 .f32} (harg5 : arg5.IsWhole)
variable {arg6 : Memref sig .tc .vmem S128x1 .f32} (harg6 : arg6.IsWhole)
variable {arg7 : Memref sig .tc .vmem S128x128 .f32} (harg7 : arg7.IsWhole)
variable {arg8 : Memref sig .tc .vmem S128x128 .f32} (harg8 : arg8.IsWhole)
variable {arg9 : Memref sig .tc .vmem S128x128 .f32} (harg9 : arg9.IsWhole)
variable {arg10 : Memref sig .tc .vmem S128x128 .f32} (harg10 : arg10.IsWhole)
variable {arg11 : Memref sig .tc .vmem S128x128 .f32} (harg11 : arg11.IsWhole)
variable {arg12 : Memref sig .tc .vmem S128x128 .f32} (harg12 : arg12.IsWhole)
variable (x0 : Vec Ideal S128x512 .f32) (x1 x2 : Vec Ideal S128x512 .i32)
variable (xo5 xo6 : Vec Ideal S128x1 .f32) (xo7 xo8 xo9 xo10 xo11 xo12 : Vec Ideal S128x128 .f32)

theorem outA5_apply (hA : isFirst i) (p : Fin 128) (q : Fin 128) :
    outA5 (F := Ideal) c i harg2 harg3 harg4 harg5 harg6 harg7 harg8 harg9 harg10 harg11 harg12 hA x0 x1 x2 (ix2 p q) = if q.val < 100 then tileCat x1 (fun _ => (1 : EReal)) p q.val else 0 := by
  unfold outA5 kernelRunA
  dsimp only
  sl_unfold_words
  refine read_first _ _ _ _ _ p q _ _ (fun h => ?_) ((read_fill _ _ _ _).trans (pay4_apply _))
  simp only [View.readAt_eq_ld, Memref.IsWhole.read_unread, View.ld_unit_zero (S := S128x512) hz2]
  refine (cnt100_apply x1 p _ ⟨q.val, h⟩).trans ?_
  rw [readCov_zero _ _ _ pay4_apply, zero_add]
theorem outB5_apply (hB : ¬isFirst i) (p : Fin 128) (q : Fin 128) :
    outB5 (F := Ideal) c i harg2 harg3 harg4 harg5 harg6 harg7 harg8 harg9 harg10 harg11 harg12 hB x0 x1 x2 xo5 xo6 xo7 xo8 xo9 xo10 xo11 xo12 (ix2 p q) = if q.val < 100 then xo7 (ix2 p q) + tileCat x1 (fun _ => (1 : EReal)) p q.val else xo7 (ix2 p q) := by
  unfold outB5 kernelRunB
  dsimp only
  sl_unfold_words
  refine read_first _ _ _ _ [] p q _ _ (fun h => ?_) (congrFun (Memref.IsWhole.read_unread _ xo7) _)
  simp only [View.readAt_eq_ld, Memref.IsWhole.read_unread, View.ld_unit_zero (S := S128x512) hz2]
  refine (cnt100_apply x1 p _ ⟨q.val, h⟩).trans ?_
  rw [ld_first]
theorem outA6_apply (hA : isFirst i) (p : Fin 128) (q : Fin 128) :
    outA6 (F := Ideal) c i harg2 harg3 harg4 harg5 harg6 harg7 harg8 harg9 harg10 harg11 harg12 hA x0 x1 x2 (ix2 p q) = if q.val < 100 then tileCat x1 x0 p q.val else 0 := by
  unfold outA6 kernelRunA
  dsimp only
  sl_unfold_words
  refine read_first _ _ _ _ _ p q _ _ (fun h => ?_) ((read_fill _ _ _ _).trans (pay5_apply _))
  simp only [View.readAt_eq_ld, Memref.IsWhole.read_unread, View.ld_unit_zero (S := S128x512) hz2]
  refine (sum100_apply x0 x1 p _ ⟨q.val, h⟩).trans ?_
  rw [readCov_zero _ _ _ pay5_apply, zero_add]
theorem outB6_apply (hB : ¬isFirst i) (p : Fin 128) (q : Fin 128) :
    outB6 (F := Ideal) c i harg2 harg3 harg4 harg5 harg6 harg7 harg8 harg9 harg10 harg11 harg12 hB x0 x1 x2 xo5 xo6 xo7 xo8 xo9 xo10 xo11 xo12 (ix2 p q) = if q.val < 100 then xo8 (ix2 p q) + tileCat x1 x0 p q.val else xo8 (ix2 p q) := by
  unfold outB6 kernelRunB
  dsimp only
  sl_unfold_words
  refine read_first _ _ _ _ [] p q _ _ (fun h => ?_) (congrFun (Memref.IsWhole.read_unread _ xo8) _)
  simp only [View.readAt_eq_ld, Memref.IsWhole.read_unread, View.ld_unit_zero (S := S128x512) hz2]
  refine (sum100_apply x0 x1 p _ ⟨q.val, h⟩).trans ?_
  rw [ld_first]
theorem outA7_apply (hA : isFirst i) (p : Fin 128) (q : Fin 128) :
    outA7 (F := Ideal) c i harg2 harg3 harg4 harg5 harg6 harg7 harg8 harg9 harg10 harg11 harg12 hA x0 x1 x2 (ix2 p q) = if q.val < 100 then tileCat x1 (fun j => x0 j * x0 j) p q.val else 0 := by
  unfold outA7 kernelRunA
  dsimp only
  sl_unfold_words
  refine read_first _ _ _ _ _ p q _ _ (fun h => ?_) ((read_fill _ _ _ _).trans (pay6_apply _))
  simp only [View.readAt_eq_ld, Memref.IsWhole.read_unread, View.ld_unit_zero (S := S128x512) hz2]
  refine (sq100_apply x0 x1 p _ ⟨q.val, h⟩).trans ?_
  rw [readCov_zero _ _ _ pay6_apply, zero_add]
theorem outB7_apply (hB : ¬isFirst i) (p : Fin 128) (q : Fin 128) :
    outB7 (F := Ideal) c i harg2 harg3 harg4 harg5 harg6 harg7 harg8 harg9 harg10 harg11 harg12 hB x0 x1 x2 xo5 xo6 xo7 xo8 xo9 xo10 xo11 xo12 (ix2 p q) = if q.val < 100 then xo9 (ix2 p q) + tileCat x1 (fun j => x0 j * x0 j) p q.val else xo9 (ix2 p q) := by
  unfold outB7 kernelRunB
  dsimp only
  sl_unfold_words
  refine read_first _ _ _ _ [] p q _ _ (fun h => ?_) (congrFun (Memref.IsWhole.read_unread _ xo9) _)
  simp only [View.readAt_eq_ld, Memref.IsWhole.read_unread, View.ld_unit_zero (S := S128x512) hz2]
  refine (sq100_apply x0 x1 p _ ⟨q.val, h⟩).trans ?_
  rw [ld_first]
theorem outA8_apply (hA : isFirst i) (p : Fin 128) (q : Fin 128) :
    outA8 (F := Ideal) c i harg2 harg3 harg4 harg5 harg6 harg7 harg8 harg9 harg10 harg11 harg12 hA x0 x1 x2 (ix2 p q) = if q.val < 50 then tileCat x2 (fun _ => (1 : EReal)) p q.val else 0 := by
  unfold outA8 kernelRunA
  dsimp only
  sl_unfold_words
  refine read_first _ _ _ _ _ p q _ _ (fun h => ?_) ((read_fill _ _ _ _).trans (pay7_apply _))
  simp only [View.readAt_eq_ld, Memref.IsWhole.read_unread, View.ld_unit_zero (S := S128x512) hz2]
  refine (cnt50_apply x2 p _ ⟨q.val, h⟩).trans ?_
  rw [readCov_zero _ _ _ pay7_apply, zero_add]
theorem outB8_apply (hB : ¬isFirst i) (p : Fin 128) (q : Fin 128) :
    outB8 (F := Ideal) c i harg2 harg3 harg4 harg5 harg6 harg7 harg8 harg9 harg10 harg11 harg12 hB x0 x1 x2 xo5 xo6 xo7 xo8 xo9 xo10 xo11 xo12 (ix2 p q) = if q.val < 50 then xo10 (ix2 p q) + tileCat x2 (fun _ => (1 : EReal)) p q.val else xo10 (ix2 p q) := by
  unfold outB8 kernelRunB
  dsimp only
  sl_unfold_words
  refine read_first _ _ _ _ [] p q _ _ (fun h => ?_) (congrFun (Memref.IsWhole.read_unread _ xo10) _)
  simp only [View.readAt_eq_ld, Memref.IsWhole.read_unread, View.ld_unit_zero (S := S128x512) hz2]
  refine (cnt50_apply x2 p _ ⟨q.val, h⟩).trans ?_
  rw [ld_first]
theorem outA9_apply (hA : isFirst i) (p : Fin 128) (q : Fin 128) :
    outA9 (F := Ideal) c i harg2 harg3 harg4 harg5 harg6 harg7 harg8 harg9 harg10 harg11 harg12 hA x0 x1 x2 (ix2 p q) = if q.val < 50 then tileCat x2 x0 p q.val else 0 := by
  unfold outA9 kernelRunA
  dsimp only
  sl_unfold_words
  refine read_first _ _ _ _ _ p q _ _ (fun h => ?_) ((read_fill _ _ _ _).trans (pay8_apply _))
  simp only [View.readAt_eq_ld, Memref.IsWhole.read_unread, View.ld_unit_zero (S := S128x512) hz2]
  refine (sum50_apply x0 x2 p _ ⟨q.val, h⟩).trans ?_
  rw [readCov_zero _ _ _ pay8_apply, zero_add]
theorem outB9_apply (hB : ¬isFirst i) (p : Fin 128) (q : Fin 128) :
    outB9 (F := Ideal) c i harg2 harg3 harg4 harg5 harg6 harg7 harg8 harg9 harg10 harg11 harg12 hB x0 x1 x2 xo5 xo6 xo7 xo8 xo9 xo10 xo11 xo12 (ix2 p q) = if q.val < 50 then xo11 (ix2 p q) + tileCat x2 x0 p q.val else xo11 (ix2 p q) := by
  unfold outB9 kernelRunB
  dsimp only
  sl_unfold_words
  refine read_first _ _ _ _ [] p q _ _ (fun h => ?_) (congrFun (Memref.IsWhole.read_unread _ xo11) _)
  simp only [View.readAt_eq_ld, Memref.IsWhole.read_unread, View.ld_unit_zero (S := S128x512) hz2]
  refine (sum50_apply x0 x2 p _ ⟨q.val, h⟩).trans ?_
  rw [ld_first]
theorem outA10_apply (hA : isFirst i) (p : Fin 128) (q : Fin 128) :
    outA10 (F := Ideal) c i harg2 harg3 harg4 harg5 harg6 harg7 harg8 harg9 harg10 harg11 harg12 hA x0 x1 x2 (ix2 p q) = if q.val < 50 then tileCat x2 (fun j => x0 j * x0 j) p q.val else 0 := by
  unfold outA10 kernelRunA
  dsimp only
  sl_unfold_words
  refine read_first _ _ _ _ _ p q _ _ (fun h => ?_) ((read_fill _ _ _ _).trans (pay9_apply _))
  simp only [View.readAt_eq_ld, Memref.IsWhole.read_unread, View.ld_unit_zero (S := S128x512) hz2]
  refine (sq50_apply x0 x2 p _ ⟨q.val, h⟩).trans ?_
  rw [readCov_zero _ _ _ pay9_apply, zero_add]
theorem outB10_apply (hB : ¬isFirst i) (p : Fin 128) (q : Fin 128) :
    outB10 (F := Ideal) c i harg2 harg3 harg4 harg5 harg6 harg7 harg8 harg9 harg10 harg11 harg12 hB x0 x1 x2 xo5 xo6 xo7 xo8 xo9 xo10 xo11 xo12 (ix2 p q) = if q.val < 50 then xo12 (ix2 p q) + tileCat x2 (fun j => x0 j * x0 j) p q.val else xo12 (ix2 p q) := by
  unfold outB10 kernelRunB
  dsimp only
  sl_unfold_words
  refine read_first _ _ _ _ [] p q _ _ (fun h => ?_) (congrFun (Memref.IsWhole.read_unread _ xo12) _)
  simp only [View.readAt_eq_ld, Memref.IsWhole.read_unread, View.ld_unit_zero (S := S128x512) hz2]
  refine (sq50_apply x0 x2 p _ ⟨q.val, h⟩).trans ?_
  rw [ld_first]

end Cert.KernelIdeal.Hand

end
-- ==== Proof.KIAcc.lean ====
import proofs.«422984_j51135880626856_3_alg».proof.Proof.KIVal34
import proofs.«422984_j51135880626856_3_alg».proof.Proof.KIValCat
import Mathlib.Algebra.BigOperators.Fin

noncomputable section

namespace Cert.Spec

open Idealize.ShloMosaic

def tilesUpTo (S : Fin 4 → EReal) (j : ℕ) : EReal := ∑ k : Fin 4, if k.val ≤ j then S k else 0

theorem tilesUpTo_zero (S : Fin 4 → EReal) : tilesUpTo S 0 = S 0 := by
  simp [tilesUpTo, Fin.sum_univ_four]

theorem tilesUpTo_succ (S : Fin 4 → EReal) (j j' : ℕ) (h : j' < 4) (e : j' = j + 1) :
    tilesUpTo S j' = tilesUpTo S j + S ⟨j', h⟩ := by
  subst e
  have hj : j < 3 := by omega
  interval_cases j <;> simp [tilesUpTo, Fin.sum_univ_four] <;> rfl

theorem tilesUpTo_three (S : Fin 4 → EReal) : tilesUpTo S 3 = ∑ k : Fin 4, S k :=
  Finset.sum_congr rfl fun k _ => if_pos (by have := k.isLt; omega)

abbrev tileOf (n : ℕ) : Fin 4 := ⟨n % 4, Nat.mod_lt _ (by norm_num)⟩

-- A value zero-filled at each block row's first tile and gaining one share per tile holds, after a fourth tile, the row's four shares.
theorem acc_whole {N : ℕ} (f : (n : ℕ) → n < N → EReal) (S : ℕ → Fin 4 → EReal)
    (hA : ∀ n hn, n % 4 = 0 → f n hn = S (n / 4) (tileOf n))
    (hB : ∀ n (hn : n + 1 < N), ¬(n + 1) % 4 = 0 → f (n + 1) hn = f n (Nat.lt_of_succ_lt hn) + S ((n + 1) / 4) (tileOf (n + 1)))
    (n : ℕ) (hn : n < N) (h3 : n % 4 = 3) : f n hn = ∑ k : Fin 4, S (n / 4) k := by
  have inv : ∀ n hn, f n hn = tilesUpTo (S (n / 4)) (n % 4) := fun n => by
    induction n with
    | zero => exact fun hn => (hA 0 hn rfl).trans (tilesUpTo_zero _).symm
    | succ n ih =>
      intro hn
      by_cases h0 : (n + 1) % 4 = 0
      · rw [hA _ hn h0, h0, show tileOf (n + 1) = 0 from Fin.ext h0]; exact (tilesUpTo_zero _).symm
      · rw [hB n hn h0, ih, show (n + 1) / 4 = n / 4 by omega]
        exact (tilesUpTo_succ _ (n % 4) ((n + 1) % 4) _ (by omega)).symm
  rw [inv, h3, tilesUpTo_three]

def rowOf (r : ℕ) (p : Fin 128) : Fin 4096 := ⟨(128 * r + p.val) % 4096, Nat.mod_lt _ (by norm_num)⟩

abbrev sqOf (x : SBT.Idx → EReal) : SBT.Idx → EReal := fun j => x j * x j

abbrev catOf (cat : IVec SBT 32) (v : SBT.Idx → EReal) (q : ℕ) : SBT.Idx → EReal := fun i => if (cat i).toNat = q then v i else 0

-- Each tile adds the sum of its 512 columns, so four tiles give the row's 2048 columns; an entry outside P stays zero.
theorem pad_acc {N : ℕ} (P : Prop) [Decidable P] (g : SBT.Idx → EReal) (p : Fin 128) (f : (n : ℕ) → n < N → EReal)
    (e : Fin N → SBlk.Idx → SBT.Idx) (he : ∀ (t : Fin N) l, e t (pl p l) = bt (rowOf (t.val / 4) p) (col (tileOf t.val) l))
    (hA : ∀ n hn, n % 4 = 0 → f n hn = if P then tileRow (fun j => g (e ⟨n, hn⟩ j)) p else 0)
    (hB : ∀ n (hn : n + 1 < N), ¬(n + 1) % 4 = 0 → f (n + 1) hn =
      if P then f n (Nat.lt_of_succ_lt hn) + tileRow (fun j => g (e ⟨n + 1, hn⟩ j)) p else f n (Nat.lt_of_succ_lt hn))
    (n : ℕ) (hn : n < N) (h3 : n % 4 = 3) : f n hn = if P then rowSum g (rowOf (n / 4) p) else 0 := by
  have hs : ∀ n hn, tileRow (fun j => g (e ⟨n, hn⟩ j)) p = ∑ l : Fin 512, g (bt (rowOf (n / 4) p) (col (tileOf n) l)) := fun n hn =>
    Finset.sum_congr rfl fun l _ => congrArg g (he ⟨n, hn⟩ l)
  by_cases hP : P
  · simp only [if_pos hP] at hA hB ⊢
    exact (acc_whole f (fun r k => ∑ l : Fin 512, g (bt (rowOf r p) (col k l))) (fun n hn h0 => (hA n hn h0).trans (hs n hn))
      (fun n hn hb => (hB n hn hb).trans (congrArg _ (hs _ hn))) n hn h3).trans (sum_four_tiles fun t => g (bt (rowOf (n / 4) p) t)).symm
  · simp only [if_neg hP] at hA hB ⊢
    exact (acc_whole f (fun _ _ => 0) hA (fun n hn hb => (hB n hn hb).trans (add_zero _).symm) n hn h3).trans Finset.sum_const_zero

end Cert.Spec

namespace Cert.KernelIdeal.Hand

open Cert.KernelIdeal Cert.KernelIdeal.Gen
open Idealize.ShloMosaic Idealize.ShloMosaic.TcCoe
open Idealize.ShloMosaic.Pipeline (Dat)

open Cert.Spec ValueIdx

theorem acc_index : ∀ t : Fin cfg0.N,
    (win0_0.index t (0 : Fin 2) = t.val / 4 ∧ win0_0.index t (1 : Fin 2) = t.val % 4)
    ∧ (win0_3.index t (0 : Fin 2) = t.val / 4 ∧ win0_3.index t (1 : Fin 2) = 0)
    ∧ (win0_5.index t (0 : Fin 2) = t.val / 4 ∧ win0_5.index t (1 : Fin 2) = 0) :=
  (by decide +kernel : ∀ t : Fin grid0.N, _)

-- An input block's entry (p, l) at point t is the array's entry at row 128 (t / 4) + p, column 512 (t % 4) + l.
theorem accEmbIn (p : Fin 128) (t : Fin cfg0.N) (l : Fin 512) :
    ((cfg0.win 0).blk t).view.emb (ix2 p l) = bt (rowOf (t.val / 4) p) (col (tileOf t.val) l) := by
  have hN : t.val < 128 := lt_of_lt_of_eq t.isLt (show cfg0.N = 128 from N_0)
  obtain ⟨e0, e1⟩ := (acc_index t).1
  funext a
  apply Fin.ext
  match a with
  | ⟨0, _⟩ => show win0_0.index t (0 : Fin 2) * 128 + 1 * p.val = (128 * (t.val / 4) + p.val) % 4096; rw [e0]; omega
  | ⟨1, _⟩ => show win0_0.index t (1 : Fin 2) * 512 + 1 * l.val = 512 * (t.val % 4) + l.val; rw [e1]; omega

theorem accEmb3 (t : Fin cfg0.N) (p : Fin 128) :
    ((cfg0.win 3).blk t).view.emb (ix2 p (0 : Fin 1)) = ix2 (rowOf (t.val / 4) p) (0 : Fin 1) := by
  have hN : t.val < 128 := lt_of_lt_of_eq t.isLt (show cfg0.N = 128 from N_0)
  obtain ⟨e0, e1⟩ := (acc_index t).2.1
  funext a
  apply Fin.ext
  match a with
  | ⟨0, _⟩ => show win0_3.index t (0 : Fin 2) * 128 + 1 * p.val = (128 * (t.val / 4) + p.val) % 4096; rw [e0]; omega
  | ⟨1, _⟩ => show win0_3.index t (1 : Fin 2) * 1 + 1 * 0 = 0; rw [e1]

theorem accEmb5 (t : Fin cfg0.N) (p : Fin 128) (q : Fin 128) :
    ((cfg0.win 5).blk t).view.emb (ix2 p q) = ix2 (rowOf (t.val / 4) p) q := by
  have hN : t.val < 128 := lt_of_lt_of_eq t.isLt (show cfg0.N = 128 from N_0)
  obtain ⟨e0, e1⟩ := (acc_index t).2.2
  funext a
  apply Fin.ext
  match a with
  | ⟨0, _⟩ => show win0_5.index t (0 : Fin 2) * 128 + 1 * p.val = (128 * (t.val / 4) + p.val) % 4096; rw [e0]; omega
  | ⟨1, _⟩ => show win0_5.index t (1 : Fin 2) * 128 + 1 * q.val = q.val; rw [e1]; omega

-- Row b lies in block row b / 128, whose fourth tile is point 4 (b / 128) + 3.
theorem lastTile (b : Fin 4096) :
    ∃ t : Fin cfg0.N, t.val % 4 = 3 ∧ rowOf (t.val / 4) ⟨b.val % 128, Nat.mod_lt _ (by norm_num)⟩ = b := by
  have hN : cfg0.N = 128 := N_0
  have hb := b.isLt
  exact ⟨⟨4 * (b.val / 128) + 3, by rw [hN]; omega⟩, by show (4 * (b.val / 128) + 3) % 4 = 3; omega,
    Fin.ext (by show (128 * ((4 * (b.val / 128) + 3) / 4) + b.val % 128) % 4096 = b.val; omega)⟩

theorem mem3 (b : Fin 4096) : ∃ t : Fin cfg0.N, t.val % 4 = 3 ∧ ix2 b (0 : Fin 1) ∈ ((cfg0.win 3).blk t).view.set := by
  obtain ⟨t, h3, hr⟩ := lastTile b
  exact ⟨t, h3, by rw [← hr, ← accEmb3]; exact View.emb_mem_set _ _⟩

theorem ext3 (t : Fin cfg0.N) (Y R : S128x1.Idx → EReal) (G : S4096x1.Idx → EReal)
    (hR : ∀ j, R j = G (((cfg0.win 3).blk t).view.emb j))
    (h : ∀ p, Y (ix2 p (0 : Fin 1)) = G (ix2 (rowOf (t.val / 4) p) (0 : Fin 1))) : Y = R := funext fun j => by
  obtain ⟨p, z, rfl⟩ : ∃ (p : Fin 128) (z : Fin 1), j = ix2 p z := ⟨j 0, j 1, eq_ix2 (n0 := 128) (n1 := 1) j⟩
  obtain rfl : z = 0 := Subsingleton.elim _ _
  rw [hR, accEmb3]; exact h p

abbrev gRow (x : SBT.Idx → EReal) : S4096x1.Idx → EReal := fun i => rowSum x (i 0)

abbrev gCat (C : ℕ) (cat : IVec SBT 32) (v : SBT.Idx → EReal) : S4096x128.Idx → EReal :=
  fun i => if (i 1).val < C then catSum cat v (i 0) (i 1).val else 0

section sums
variable (m : (ℓ : Loc nD τ sig) → Buf (Elt Ideal) ℓ)

theorem final3 (c : Dev nD) (b : Fin 4096) :
    ((dats m 0 c).arrAt 3 cfg0.N) (ix2 b (0 : Fin 1)) = rowSum (m ((c : Thread nD τ).loc main_arg0)) b := by
  obtain ⟨t, h3, hi⟩ := mem3 b
  exact (dats m 0 c).arrAt_apply_of_mem 3 (gRow (m ((c : Thread nD τ).loc main_arg0))) (fun t hf => ext3 t _ _ (gRow (m ((c : Thread nD τ).loc main_arg0))) (fun _ => rfl) fun p =>
      pad_acc True (m ((c : Thread nD τ).loc main_arg0)) p (fun n hn => (outsAt m c n hn).1 (ix2 p (0 : Fin 1))) (fun t => ((cfg0.win 0).blk t).view.emb) (accEmbIn p)
        (fun n hn h0 => by rw [outsAt_A m c ⟨n, hn⟩ h0]; dsimp only [outsA]; rw [outA3_apply]; rfl)
        (fun n hn hB => by rw [outsAt_B m c ⟨n + 1, hn⟩ hB]; dsimp only [outsB]; rw [outB3_apply]; rfl)
        t.val t.isLt ((flush0_3 t).mp hf))
    cfg0.N t _ t.isLt ((flush0_3 t).mpr h3) hi

theorem final4 (c : Dev nD) (b : Fin 4096) :
    ((dats m 0 c).arrAt 4 cfg0.N) (ix2 b (0 : Fin 1)) = rowSum (sqOf (m ((c : Thread nD τ).loc main_arg0))) b := by
  obtain ⟨t, h3, hi⟩ := mem3 b
  exact (dats m 0 c).arrAt_apply_of_mem 4 (gRow (sqOf (m ((c : Thread nD τ).loc main_arg0)))) (fun t hf => ext3 t _ _ (gRow (sqOf (m ((c : Thread nD τ).loc main_arg0)))) (fun _ => rfl) fun p =>
      pad_acc True (sqOf (m ((c : Thread nD τ).loc main_arg0))) p (fun n hn => (outsAt m c n hn).2.1 (ix2 p (0 : Fin 1))) (fun t => ((cfg0.win 0).blk t).view.emb) (accEmbIn p)
        (fun n hn h0 => by rw [outsAt_A m c ⟨n, hn⟩ h0]; dsimp only [outsA]; rw [outA4_apply]; rfl)
        (fun n hn hB => by rw [outsAt_B m c ⟨n + 1, hn⟩ hB]; dsimp only [outsB]; rw [outB4_apply]; rfl)
        t.val t.isLt ((flush0_4 t).mp hf))
    cfg0.N t _ t.isLt ((flush0_4 t).mpr h3) hi

-- An entry (b, q) of a per-category result lies in the block written back after the fourth tile of block row b / 128.
theorem cat_fin (c : Dev nD) (C : ℕ) (cat : IVec SBT 32) (v : SBT.Idx → EReal) (A : S4096x128.Idx → EReal) (π : Outs Ideal → S128x128.Idx → EReal)
    (H : (∀ t : Fin cfg0.N, t.val % 4 = 3 → ∀ j, π (outsAt m c t.val t.isLt) j = gCat C cat v (((cfg0.win 5).blk t).view.emb j)) →
      ∀ (t : Fin cfg0.N) i, t.val % 4 = 3 → i ∈ ((cfg0.win 5).blk t).view.set → A i = gCat C cat v i)
    (hA : ∀ t h0 p q, π (outsA m c t h0) (ix2 p q) =
      if q.val < C then tileRow (fun j => catOf cat v q.val (((cfg0.win 0).blk t).view.emb j)) p else 0)
    (hB : ∀ t h0 xo p q, π (outsB m c t h0 xo) (ix2 p q) =
      if q.val < C then π xo (ix2 p q) + tileRow (fun j => catOf cat v q.val (((cfg0.win 0).blk t).view.emb j)) p else π xo (ix2 p q))
    (b : Fin 4096) (q : Fin 128) : A (ix2 b q) = gCat C cat v (ix2 b q) := by
  obtain ⟨t, h3, hr⟩ := lastTile b
  refine H (fun t h3 j => ?_) t _ h3 (by rw [← hr, ← accEmb5]; exact View.emb_mem_set _ _)
  obtain ⟨p, q, rfl⟩ : ∃ (p : Fin 128) (q : Fin 128), j = ix2 p q := ⟨j 0, j 1, eq_ix2 (n0 := 128) (n1 := 128) j⟩
  rw [accEmb5]
  exact pad_acc (q.val < C) (catOf cat v q.val) p (fun n hn => π (outsAt m c n hn) (ix2 p q)) (fun t => ((cfg0.win 0).blk t).view.emb) (accEmbIn p)
    (fun n hn h0 => by rw [outsAt_A m c ⟨n, hn⟩ h0]; exact hA _ h0 p q)
    (fun n hn hb => by rw [outsAt_B m c ⟨n + 1, hn⟩ hb]; exact hB _ hb _ p q) t.val t.isLt h3

theorem final5 (c : Dev nD) (b : Fin 4096) (q : Fin 128) :
    ((dats m 0 c).arrAt 5 cfg0.N) (ix2 b q) = if q.val < 100 then catSum (m ((c : Thread nD τ).loc main_arg1)) (fun _ => (1 : EReal)) b q.val else 0 :=
  cat_fin m c _ _ _ _ (·.2.2.1)
    (fun hG t i h3 => (dats m 0 c).arrAt_apply_of_mem 5 (gCat 100 (m ((c : Thread nD τ).loc main_arg1)) (fun _ => (1 : EReal))) (fun t hf => funext (hG t ((flush0_5 t).mp hf))) cfg0.N t i t.isLt ((flush0_5 t).mpr h3))
    (fun t h0 p q => by dsimp only [outsA]; rw [outA5_apply]; rfl) (fun t h0 xo p q => by dsimp only [outsB]; rw [outB5_apply]; rfl) b q

theorem final6 (c : Dev nD) (b : Fin 4096) (q : Fin 128) :
    ((dats m 0 c).arrAt 6 cfg0.N) (ix2 b q) = if q.val < 100 then catSum (m ((c : Thread nD τ).loc main_arg1)) (m ((c : Thread nD τ).loc main_arg0)) b q.val else 0 :=
  cat_fin m c _ _ _ _ (·.2.2.2.1)
    (fun hG t i h3 => (dats m 0 c).arrAt_apply_of_mem 6 (gCat 100 (m ((c : Thread nD τ).loc main_arg1)) (m ((c : Thread nD τ).loc main_arg0))) (fun t hf => funext (hG t ((flush0_6 t).mp hf))) cfg0.N t i t.isLt ((flush0_6 t).mpr h3))
    (fun t h0 p q => by dsimp only [outsA]; rw [outA6_apply]; rfl) (fun t h0 xo p q => by dsimp only [outsB]; rw [outB6_apply]; rfl) b q

theorem final7 (c : Dev nD) (b : Fin 4096) (q : Fin 128) :
    ((dats m 0 c).arrAt 7 cfg0.N) (ix2 b q) = if q.val < 100 then catSum (m ((c : Thread nD τ).loc main_arg1)) (sqOf (m ((c : Thread nD τ).loc main_arg0))) b q.val else 0 :=
  cat_fin m c _ _ _ _ (·.2.2.2.2.1)
    (fun hG t i h3 => (dats m 0 c).arrAt_apply_of_mem 7 (gCat 100 (m ((c : Thread nD τ).loc main_arg1)) (sqOf (m ((c : Thread nD τ).loc main_arg0)))) (fun t hf => funext (hG t ((flush0_7 t).mp hf))) cfg0.N t i t.isLt ((flush0_7 t).mpr h3))
    (fun t h0 p q => by dsimp only [outsA]; rw [outA7_apply]; rfl) (fun t h0 xo p q => by dsimp only [outsB]; rw [outB7_apply]; rfl) b q

theorem final8 (c : Dev nD) (b : Fin 4096) (q : Fin 128) :
    ((dats m 0 c).arrAt 8 cfg0.N) (ix2 b q) = if q.val < 50 then catSum (m ((c : Thread nD τ).loc main_arg2)) (fun _ => (1 : EReal)) b q.val else 0 :=
  cat_fin m c _ _ _ _ (·.2.2.2.2.2.1)
    (fun hG t i h3 => (dats m 0 c).arrAt_apply_of_mem 8 (gCat 50 (m ((c : Thread nD τ).loc main_arg2)) (fun _ => (1 : EReal))) (fun t hf => funext (hG t ((flush0_8 t).mp hf))) cfg0.N t i t.isLt ((flush0_8 t).mpr h3))
    (fun t h0 p q => by dsimp only [outsA]; rw [outA8_apply]; rfl) (fun t h0 xo p q => by dsimp only [outsB]; rw [outB8_apply]; rfl) b q

theorem final9 (c : Dev nD) (b : Fin 4096) (q : Fin 128) :
    ((dats m 0 c).arrAt 9 cfg0.N) (ix2 b q) = if q.val < 50 then catSum (m ((c : Thread nD τ).loc main_arg2)) (m ((c : Thread nD τ).loc main_arg0)) b q.val else 0 :=
  cat_fin m c _ _ _ _ (·.2.2.2.2.2.2.1)
    (fun hG t i h3 => (dats m 0 c).arrAt_apply_of_mem 9 (gCat 50 (m ((c : Thread nD τ).loc main_arg2)) (m ((c : Thread nD τ).loc main_arg0))) (fun t hf => funext (hG t ((flush0_9 t).mp hf))) cfg0.N t i t.isLt ((flush0_9 t).mpr h3))
    (fun t h0 p q => by dsimp only [outsA]; rw [outA9_apply]; rfl) (fun t h0 xo p q => by dsimp only [outsB]; rw [outB9_apply]; rfl) b q

theorem final10 (c : Dev nD) (b : Fin 4096) (q : Fin 128) :
    ((dats m 0 c).arrAt 10 cfg0.N) (ix2 b q) = if q.val < 50 then catSum (m ((c : Thread nD τ).loc main_arg2)) (sqOf (m ((c : Thread nD τ).loc main_arg0))) b q.val else 0 :=
  cat_fin m c _ _ _ _ (·.2.2.2.2.2.2.2)
    (fun hG t i h3 => (dats m 0 c).arrAt_apply_of_mem 10 (gCat 50 (m ((c : Thread nD τ).loc main_arg2)) (sqOf (m ((c : Thread nD τ).loc main_arg0)))) (fun t hf => funext (hG t ((flush0_10 t).mp hf))) cfg0.N t i t.isLt ((flush0_10 t).mpr h3))
    (fun t h0 p q => by dsimp only [outsA]; rw [outA10_apply]; rfl) (fun t h0 xo p q => by dsimp only [outsB]; rw [outB10_apply]; rfl) b q

end sums

end Cert.KernelIdeal.Hand

end
-- ==== Proof.TailFn.lean ====
import proofs.«422984_j51135880626856_3_alg».proof.KernelIdeal
import proofs.«422984_j51135880626856_3_alg».proof.Proof.Gen.KernelIdeal
import Idealize.ShloMosaic.PureOps

noncomputable section

namespace Cert.KernelIdeal.TailFn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

def post (sl s ss : FVec F S4096 .f32) (cm sm qm : FVec F S4096x100 .f32) (ct st qt : FVec F S4096x50 .f32) :
    FVec F S4096x456 .f32 := by
  let main_v9 : FVec F S4096 .f32 := sl
  let main_v7 : FVec F S4096 .f32 := s
  let main_v8 : FVec F S4096 .f32 := ss
  let main_v1 : FVec F S4096x100 .f32 := cm
  let main_v2 : FVec F S4096x100 .f32 := sm
  let main_v3 : FVec F S4096x100 .f32 := qm
  let main_v4 : FVec F S4096x50 .f32 := ct
  let main_v5 : FVec F S4096x50 .f32 := st
  let main_v6 : FVec F S4096x50 .f32 := qt
  let main_cst : FVec F S_ .f32 := constant (F := F) S_ .f32 0x3089705F#32
  let main_v10 : FVec F S4096 .f32 := broadcastInDim S4096 ![] bcast_S_S4096 main_cst
  let main_v11 : FVec F S4096 .f32 := addf main_v9 main_v10
  let main_v12 : FVec F S4096 .f32 := Host.divf main_v7 main_v11
  let main_v13 : FVec F S4096 .f32 := mulf main_v7 main_v7
  let main_cst_0 : FVec F S_ .f32 := constant (F := F) S_ .f32 0x3089705F#32
  let main_v14 : FVec F S4096 .f32 := broadcastInDim S4096 ![] bcast_S_S4096 main_cst_0
  let main_v15 : FVec F S4096 .f32 := addf main_v9 main_v14
  let main_v16 : FVec F S4096 .f32 := Host.divf main_v13 main_v15
  let main_v17 : FVec F S4096 .f32 := subf main_v8 main_v16
  let main_cst_1 : FVec F S_ .f32 := constant (F := F) S_ .f32 0x00000000#32
  let main_call0_v0 : FVec F S_ .f32 := id main_cst_1
  let main_call0_v1 : FVec F S4096 .f32 := broadcastInDim S4096 ![] bcast_S_S4096 main_call0_v0
  let main_v18 : FVec F S4096 .f32 := maximumf main_call0_v1 main_v17
  let main_cst_2 : FVec F S_ .f32 := constant (F := F) S_ .f32 0x3F800000#32
  let main_v19 : FVec F S4096 .f32 := broadcastInDim S4096 ![] bcast_S_S4096 main_cst_2
  let main_v20 : FVec F S4096 .f32 := subf main_v9 main_v19
  let main_cst_3 : FVec F S_ .f32 := constant (F := F) S_ .f32 0x00000000#32
  let main_call1_v0 : FVec F S_ .f32 := id main_cst_3
  let main_call1_v1 : FVec F S4096 .f32 := broadcastInDim S4096 ![] bcast_S_S4096 main_call1_v0
  let main_v21 : FVec F S4096 .f32 := maximumf main_call1_v1 main_v20
  let main_cst_4 : FVec F S_ .f32 := constant (F := F) S_ .f32 0x3089705F#32
  let main_v22 : FVec F S4096 .f32 := broadcastInDim S4096 ![] bcast_S_S4096 main_cst_4
  let main_v23 : FVec F S4096 .f32 := addf main_v21 main_v22
  let main_v24 : FVec F S4096 .f32 := Host.divf main_v18 main_v23
  let main_v25 : FVec F S4096 .f32 := Host.sqrt main_v24
  let main_v26 : FVec F S4096x1 .f32 := broadcastInDim S4096x1 ![0] bcast_S4096_S4096x1_0 main_v9
  let main_v27 : FVec F S4096x1 .f32 := broadcastInDim S4096x1 ![0] bcast_S4096_S4096x1_0 main_v7
  let main_v28 : FVec F S4096x1 .f32 := broadcastInDim S4096x1 ![0] bcast_S4096_S4096x1_0 main_v12
  let main_v29 : FVec F S4096x1 .f32 := broadcastInDim S4096x1 ![0] bcast_S4096_S4096x1_0 main_v25
  let main_v30 : IVec S100 32 := iotaInDim S100 32 0
  let main_c : IVec S_ 32 := constantI S_ 32 0#32
  let main_v31 : IVec S100 32 := broadcastInDim S100 ![] bcast_S_S100 main_c
  let main_v32 : IVec S100 1 := cmpi .sgt main_v30 main_v31
  let main_v33 : FVec F S100 .f32 := uitofp (F := F) .f32 main_v32
  let main_v34 : FVec F S1x100 .f32 := broadcastInDim S1x100 ![1] bcast_S100_S1x100_1 main_v33
  let main_v35 : FVec F S4096x100 .f32 := broadcastInDim S4096x100 ![0, 1] bcast_S1x100_S4096x100_0_1 main_v34
  let main_v36 : FVec F S4096x100 .f32 := mulf main_v1 main_v35
  let main_cst_5 : FVec F S_ .f32 := constant (F := F) S_ .f32 0x3089705F#32
  let main_v37 : FVec F S4096x100 .f32 := broadcastInDim S4096x100 ![] bcast_S_S4096x100 main_cst_5
  let main_v38 : FVec F S4096x100 .f32 := addf main_v36 main_v37
  let main_v39 : FVec F S4096x100 .f32 := Host.divf main_v2 main_v38
  let main_v40 : FVec F S4096x100 .f32 := mulf main_v2 main_v2
  let main_cst_6 : FVec F S_ .f32 := constant (F := F) S_ .f32 0x3089705F#32
  let main_v41 : FVec F S4096x100 .f32 := broadcastInDim S4096x100 ![] bcast_S_S4096x100 main_cst_6
  let main_v42 : FVec F S4096x100 .f32 := addf main_v36 main_v41
  let main_v43 : FVec F S4096x100 .f32 := Host.divf main_v40 main_v42
  let main_v44 : FVec F S4096x100 .f32 := subf main_v3 main_v43
  let main_cst_7 : FVec F S_ .f32 := constant (F := F) S_ .f32 0x00000000#32
  let main_call2_v0 : FVec F S_ .f32 := id main_cst_7
  let main_call2_v1 : FVec F S4096x100 .f32 := broadcastInDim S4096x100 ![] bcast_S_S4096x100 main_call2_v0
  let main_v45 : FVec F S4096x100 .f32 := maximumf main_call2_v1 main_v44
  let main_cst_8 : FVec F S_ .f32 := constant (F := F) S_ .f32 0x3F800000#32
  let main_v46 : FVec F S4096x100 .f32 := broadcastInDim S4096x100 ![] bcast_S_S4096x100 main_cst_8
  let main_v47 : FVec F S4096x100 .f32 := subf main_v36 main_v46
  let main_cst_9 : FVec F S_ .f32 := constant (F := F) S_ .f32 0x00000000#32
  let main_call3_v0 : FVec F S_ .f32 := id main_cst_9
  let main_call3_v1 : FVec F S4096x100 .f32 := broadcastInDim S4096x100 ![] bcast_S_S4096x100 main_call3_v0
  let main_v48 : FVec F S4096x100 .f32 := maximumf main_call3_v1 main_v47
  let main_cst_10 : FVec F S_ .f32 := constant (F := F) S_ .f32 0x3089705F#32
  let main_v49 : FVec F S4096x100 .f32 := broadcastInDim S4096x100 ![] bcast_S_S4096x100 main_cst_10
  let main_v50 : FVec F S4096x100 .f32 := addf main_v48 main_v49
  let main_v51 : FVec F S4096x100 .f32 := Host.divf main_v45 main_v50
  let main_v52 : FVec F S4096x100 .f32 := Host.sqrt main_v51
  let main_cst_11 : FVec F S_ .f32 := constant (F := F) S_ .f32 0x00000000#32
  let main_v53 : FVec F S4096x100 .f32 := broadcastInDim S4096x100 ![] bcast_S_S4096x100 main_cst_11
  let main_v54 : IVec S4096x100 1 := cmpf .ogt main_v36 main_v53
  let main_v55 : FVec F S4096x100 .f32 := uitofp (F := F) .f32 main_v54
  let main_cst_12 : FVec F S_ .f32 := constant (F := F) S_ .f32 0x00000000#32
  let main_v56 : FVec F S4096 .f32 := Host.reduceAdd main_v55 main_cst_12 reducesTo_S4096x100_S4096_d1 h_S_
  let main_v57 : FVec F S4096x1 .f32 := broadcastInDim S4096x1 ![0] bcast_S4096_S4096x1_0 main_v56
  let main_v58 : IVec S50 32 := iotaInDim S50 32 0
  let main_c_13 : IVec S_ 32 := constantI S_ 32 0#32
  let main_v59 : IVec S50 32 := broadcastInDim S50 ![] bcast_S_S50 main_c_13
  let main_v60 : IVec S50 1 := cmpi .sgt main_v58 main_v59
  let main_v61 : FVec F S50 .f32 := uitofp (F := F) .f32 main_v60
  let main_v62 : FVec F S1x50 .f32 := broadcastInDim S1x50 ![1] bcast_S50_S1x50_1 main_v61
  let main_v63 : FVec F S4096x50 .f32 := broadcastInDim S4096x50 ![0, 1] bcast_S1x50_S4096x50_0_1 main_v62
  let main_v64 : FVec F S4096x50 .f32 := mulf main_v4 main_v63
  let main_cst_14 : FVec F S_ .f32 := constant (F := F) S_ .f32 0x3089705F#32
  let main_v65 : FVec F S4096x50 .f32 := broadcastInDim S4096x50 ![] bcast_S_S4096x50 main_cst_14
  let main_v66 : FVec F S4096x50 .f32 := addf main_v64 main_v65
  let main_v67 : FVec F S4096x50 .f32 := Host.divf main_v5 main_v66
  let main_v68 : FVec F S4096x50 .f32 := mulf main_v5 main_v5
  let main_cst_15 : FVec F S_ .f32 := constant (F := F) S_ .f32 0x3089705F#32
  let main_v69 : FVec F S4096x50 .f32 := broadcastInDim S4096x50 ![] bcast_S_S4096x50 main_cst_15
  let main_v70 : FVec F S4096x50 .f32 := addf main_v64 main_v69
  let main_v71 : FVec F S4096x50 .f32 := Host.divf main_v68 main_v70
  let main_v72 : FVec F S4096x50 .f32 := subf main_v6 main_v71
  let main_cst_16 : FVec F S_ .f32 := constant (F := F) S_ .f32 0x00000000#32
  let main_call4_v0 : FVec F S_ .f32 := id main_cst_16
  let main_call4_v1 : FVec F S4096x50 .f32 := broadcastInDim S4096x50 ![] bcast_S_S4096x50 main_call4_v0
  let main_v73 : FVec F S4096x50 .f32 := maximumf main_call4_v1 main_v72
  let main_cst_17 : FVec F S_ .f32 := constant (F := F) S_ .f32 0x3F800000#32
  let main_v74 : FVec F S4096x50 .f32 := broadcastInDim S4096x50 ![] bcast_S_S4096x50 main_cst_17
  let main_v75 : FVec F S4096x50 .f32 := subf main_v64 main_v74
  let main_cst_18 : FVec F S_ .f32 := constant (F := F) S_ .f32 0x00000000#32
  let main_call5_v0 : FVec F S_ .f32 := id main_cst_18
  let main_call5_v1 : FVec F S4096x50 .f32 := broadcastInDim S4096x50 ![] bcast_S_S4096x50 main_call5_v0
  let main_v76 : FVec F S4096x50 .f32 := maximumf main_call5_v1 main_v75
  let main_cst_19 : FVec F S_ .f32 := constant (F := F) S_ .f32 0x3089705F#32
  let main_v77 : FVec F S4096x50 .f32 := broadcastInDim S4096x50 ![] bcast_S_S4096x50 main_cst_19
  let main_v78 : FVec F S4096x50 .f32 := addf main_v76 main_v77
  let main_v79 : FVec F S4096x50 .f32 := Host.divf main_v73 main_v78
  let main_v80 : FVec F S4096x50 .f32 := Host.sqrt main_v79
  let main_cst_20 : FVec F S_ .f32 := constant (F := F) S_ .f32 0x00000000#32
  let main_v81 : FVec F S4096x50 .f32 := broadcastInDim S4096x50 ![] bcast_S_S4096x50 main_cst_20
  let main_v82 : IVec S4096x50 1 := cmpf .ogt main_v64 main_v81
  let main_v83 : FVec F S4096x50 .f32 := uitofp (F := F) .f32 main_v82
  let main_cst_21 : FVec F S_ .f32 := constant (F := F) S_ .f32 0x00000000#32
  let main_v84 : FVec F S4096 .f32 := Host.reduceAdd main_v83 main_cst_21 reducesTo_S4096x50_S4096_d1 h_S_
  let main_v85 : FVec F S4096x1 .f32 := broadcastInDim S4096x1 ![0] bcast_S4096_S4096x1_0 main_v84
  exact concatenate S4096x456 1 [⟨S4096x1, main_v26⟩, ⟨S4096x1, main_v27⟩, ⟨S4096x1, main_v28⟩, ⟨S4096x1, main_v29⟩, ⟨S4096x100, main_v36⟩, ⟨S4096x100, main_v39⟩, ⟨S4096x100, main_v52⟩, ⟨S4096x50, main_v64⟩, ⟨S4096x50, main_v67⟩, ⟨S4096x50, main_v80⟩, ⟨S4096x1, main_v57⟩, ⟨S4096x1, main_v85⟩] concatenates_S4096x1_S4096x1_S4096x1_S4096x1_S4096x100_S4096x100_S4096x100_S4096x50_S4096x50_S4096x50_S4096x1_S4096x1_S4096x456_d1

def tail (a3 a4 : FVec F S4096x1 .f32) (a5 a6 a7 a8 a9 a10 : FVec F S4096x128 .f32) (x3 : IVec S4096 32) :
    FVec F S4096x456 .f32 :=
  post (sitofp (F := F) .f32 x3)
    (shapeCast S4096 a3 shapeCasts_S4096x1_S4096)
    (shapeCast S4096 a4 shapeCasts_S4096x1_S4096)
    (extractStridedSlice S4096x100 ![0, 0] a5 slices_S4096x128_S4096x100_0_0)
    (extractStridedSlice S4096x100 ![0, 0] a6 slices_S4096x128_S4096x100_0_0)
    (extractStridedSlice S4096x100 ![0, 0] a7 slices_S4096x128_S4096x100_0_0)
    (extractStridedSlice S4096x50 ![0, 0] a8 slices_S4096x128_S4096x50_0_0)
    (extractStridedSlice S4096x50 ![0, 0] a9 slices_S4096x128_S4096x50_0_0)
    (extractStridedSlice S4096x50 ![0, 0] a10 slices_S4096x128_S4096x50_0_0)

end Cert.KernelIdeal.TailFn

end
-- ==== Proof.Bridge.lean ====
import proofs.«422984_j51135880626856_3_alg».proof.Proof.TailFn
import proofs.«422984_j51135880626856_3_alg».proof.Proof.SpecSums

noncomputable section

namespace Cert.Bridge

open Idealize.ShloMosaic Cert.Spec Cert.KernelIdeal

abbrev sq (x : SBT.Idx → EReal) : SBT.Idx → EReal := fun j => x j * x j

abbrev ones : SBT.Idx → EReal := fun _ => (1 : EReal)

def G (x0 : FVec Ideal S4096x2048 .f32) (x1 x2 : IVec S4096x2048 32) (x3 : IVec S4096 32) : FVec Ideal S4096x456 .f32 :=
  Cert.KernelIdeal.TailFn.post (F := Ideal) (sitofp (F := Ideal) .f32 x3)
    (fun i => rowSum x0 (i 0))
    (fun i => rowSum (sq x0) (i 0))
    (fun i => catSum x1 ones (i 0) (i 1).val)
    (fun i => catSum x1 x0 (i 0) (i 1).val)
    (fun i => catSum x1 (sq x0) (i 0) (i 1).val)
    (fun i => catSum x2 ones (i 0) (i 1).val)
    (fun i => catSum x2 x0 (i 0) (i 1).val)
    (fun i => catSum x2 (sq x0) (i 0) (i 1).val)

end Cert.Bridge

end
-- ==== Proof.KIFns.lean ====
import proofs.«422984_j51135880626856_3_alg».proof.Proof.KIAcc
import proofs.«422984_j51135880626856_3_alg».proof.Proof.Bridge

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Spec ValueIdx Cert.Bridge

-- A one-column array read as a vector over its rows.
theorem col_fn (A : FVec Ideal S4096x1 .f32) (g : Fin 4096 → EReal) (hA : ∀ b : Fin 4096, A (ix2 b (0 : Fin 1)) = g b) :
    shapeCast S4096 A shapeCasts_S4096x1_S4096 = fun i => g (i 0) := by
  funext i
  refine (shapeCast_apply _ shapeCasts_S4096x1_S4096 i (ix2 (i 0) (0 : Fin 1)) ?_).trans (hA (i 0))
  rw [Shape.rowMajor_val_two, Shape.rowMajor_val_one]
  show (i 0).val * 1 + 0 = (i 0).val
  omega

-- The leading C of the 128 columns of an array that holds g on them.
theorem slice_fn {C : ℕ} (hC : C ≤ 128) (A : FVec Ideal S4096x128 .f32) (g : Fin 4096 → ℕ → EReal)
    (hs : S4096x128.Slices ![0, 0] ⟨2, ![4096, C]⟩)
    (hA : ∀ (b : Fin 4096) (q : Fin 128), A (ix2 b q) = if q.val < C then g b q.val else 0) :
    extractStridedSlice (⟨2, ![4096, C]⟩ : Shape) ![0, 0] A hs = fun i => g (i 0) (i 1).val := by
  funext i
  have h1 : (i 1).val < C := idx2_lt1 i
  refine (extractStridedSlice_apply _ _ hs i (ix2 (i 0) ⟨(i 1).val, by omega⟩) ?_).trans
    ((hA (i 0) ⟨(i 1).val, by omega⟩).trans (if_pos h1))
  intro a
  match a with
  | ⟨0, _⟩ => show (i 0).val = 0 + (i 0).val; omega
  | ⟨1, _⟩ => show (i 1).val = 0 + (i 1).val; omega

section fns
variable (m : (ℓ : Loc nD τ sig) → Buf (Elt Ideal) ℓ)

theorem s_fn (c : Dev nD) :
    shapeCast S4096 ((dats m 0 c).arrAt 3 cfg0.N : FVec Ideal S4096x1 .f32) shapeCasts_S4096x1_S4096
      = fun i => rowSum (m ((c : Thread nD τ).loc main_arg0)) (i 0) :=
  col_fn _ _ (final3 m c)

theorem ss_fn (c : Dev nD) :
    shapeCast S4096 ((dats m 0 c).arrAt 4 cfg0.N : FVec Ideal S4096x1 .f32) shapeCasts_S4096x1_S4096
      = fun i => rowSum (sq (m ((c : Thread nD τ).loc main_arg0))) (i 0) :=
  col_fn _ _ (final4 m c)

theorem cm_fn (c : Dev nD) :
    extractStridedSlice S4096x100 ![0, 0] ((dats m 0 c).arrAt 5 cfg0.N : FVec Ideal S4096x128 .f32) slices_S4096x128_S4096x100_0_0
      = fun i => catSum (m ((c : Thread nD τ).loc main_arg1)) ones (i 0) (i 1).val :=
  slice_fn (by norm_num) _ _ _ (final5 m c)

theorem sm_fn (c : Dev nD) :
    extractStridedSlice S4096x100 ![0, 0] ((dats m 0 c).arrAt 6 cfg0.N : FVec Ideal S4096x128 .f32) slices_S4096x128_S4096x100_0_0
      = fun i => catSum (m ((c : Thread nD τ).loc main_arg1)) (m ((c : Thread nD τ).loc main_arg0)) (i 0) (i 1).val :=
  slice_fn (by norm_num) _ _ _ (final6 m c)

theorem qm_fn (c : Dev nD) :
    extractStridedSlice S4096x100 ![0, 0] ((dats m 0 c).arrAt 7 cfg0.N : FVec Ideal S4096x128 .f32) slices_S4096x128_S4096x100_0_0
      = fun i => catSum (m ((c : Thread nD τ).loc main_arg1)) (sq (m ((c : Thread nD τ).loc main_arg0))) (i 0) (i 1).val :=
  slice_fn (by norm_num) _ _ _ (final7 m c)

theorem ct_fn (c : Dev nD) :
    extractStridedSlice S4096x50 ![0, 0] ((dats m 0 c).arrAt 8 cfg0.N : FVec Ideal S4096x128 .f32) slices_S4096x128_S4096x50_0_0
      = fun i => catSum (m ((c : Thread nD τ).loc main_arg2)) ones (i 0) (i 1).val :=
  slice_fn (by norm_num) _ _ _ (final8 m c)

theorem st_fn (c : Dev nD) :
    extractStridedSlice S4096x50 ![0, 0] ((dats m 0 c).arrAt 9 cfg0.N : FVec Ideal S4096x128 .f32) slices_S4096x128_S4096x50_0_0
      = fun i => catSum (m ((c : Thread nD τ).loc main_arg2)) (m ((c : Thread nD τ).loc main_arg0)) (i 0) (i 1).val :=
  slice_fn (by norm_num) _ _ _ (final9 m c)

theorem qt_fn (c : Dev nD) :
    extractStridedSlice S4096x50 ![0, 0] ((dats m 0 c).arrAt 10 cfg0.N : FVec Ideal S4096x128 .f32) slices_S4096x128_S4096x50_0_0
      = fun i => catSum (m ((c : Thread nD τ).loc main_arg2)) (sq (m ((c : Thread nD τ).loc main_arg0))) (i 0) (i 1).val :=
  slice_fn (by norm_num) _ _ _ (final10 m c)

end fns

end Cert.KernelIdeal.Hand

end
-- ==== Proof.KITail.lean ====
import proofs.«422984_j51135880626856_3_alg».proof.Proof.KIRuns
import proofs.«422984_j51135880626856_3_alg».proof.Proof.TailFn
import Idealize.ShloMosaic.Lib.StableHlo.Run
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 8000000 in
theorem tail_eq (m : (ℓ : Loc nD τ sig) → Buf (Elt F) ℓ) (dats : (p : Fin 1) → (c : Dev nD) → Pipeline.Dat τ (Elt F) Unit ℕ (UR sig nD τ) ℕ (cfgs p) c) (c : Dev nD) :
    Pipeline.afterTail₀ cfgs dats 0 (V0 m) tailOps c main_v86
      = Cert.KernelIdeal.TailFn.tail ((dats 0 c).arrAt 3 cfg0.N) ((dats 0 c).arrAt 4 cfg0.N) ((dats 0 c).arrAt 5 cfg0.N) ((dats 0 c).arrAt 6 cfg0.N) ((dats 0 c).arrAt 7 cfg0.N) ((dats 0 c).arrAt 8 cfg0.N) ((dats 0 c).arrAt 9 cfg0.N) ((dats 0 c).arrAt 10 cfg0.N) (m ((c : Thread nD τ).loc main_arg3)) := by
  unfold Pipeline.afterTail₀
  simp only [tailOps, hostOps1, hostOps1_1, hostOps1_2, hostOps1_3, hostOps1_4, hostOps1_5, hostOps1_6, hostOps1_7, hostOps1_8, hostOps1_9, hostOps1_10, hostOps1_11, hostOps1_12, List.flatten_cons, List.flatten_nil, List.append_nil, List.cons_append, List.nil_append]
  simp only [StableHlo.after_cons, StableHlo.after_nil]

  rw [StableHlo.nary_result]
  generalize hR : (StableHlo.unary main_v84 main_v85 _ _ _).result _ = R
  simp only [Matrix.cons_val]

  have hw3 : Pipeline.withArrays (cfgs 0).spec c (V0 m c) (fun w => (dats 0 c).arrAt w (cfgs 0).N) (Proc.devRef .tc main_v0_0)
      = (dats 0 c).arrAt 3 cfg0.N := Pipeline.withArrays_arr spec0 launch0.win.arr_inj c _ _ 3
  have hw4 : Pipeline.withArrays (cfgs 0).spec c (V0 m c) (fun w => (dats 0 c).arrAt w (cfgs 0).N) (Proc.devRef .tc main_v0_1)
      = (dats 0 c).arrAt 4 cfg0.N := Pipeline.withArrays_arr spec0 launch0.win.arr_inj c _ _ 4
  have hw5 : Pipeline.withArrays (cfgs 0).spec c (V0 m c) (fun w => (dats 0 c).arrAt w (cfgs 0).N) (Proc.devRef .tc main_v0_2)
      = (dats 0 c).arrAt 5 cfg0.N := Pipeline.withArrays_arr spec0 launch0.win.arr_inj c _ _ 5
  have hw6 : Pipeline.withArrays (cfgs 0).spec c (V0 m c) (fun w => (dats 0 c).arrAt w (cfgs 0).N) (Proc.devRef .tc main_v0_3)
      = (dats 0 c).arrAt 6 cfg0.N := Pipeline.withArrays_arr spec0 launch0.win.arr_inj c _ _ 6
  have hw7 : Pipeline.withArrays (cfgs 0).spec c (V0 m c) (fun w => (dats 0 c).arrAt w (cfgs 0).N) (Proc.devRef .tc main_v0_4)
      = (dats 0 c).arrAt 7 cfg0.N := Pipeline.withArrays_arr spec0 launch0.win.arr_inj c _ _ 7
  have hw8 : Pipeline.withArrays (cfgs 0).spec c (V0 m c) (fun w => (dats 0 c).arrAt w (cfgs 0).N) (Proc.devRef .tc main_v0_5)
      = (dats 0 c).arrAt 8 cfg0.N := Pipeline.withArrays_arr spec0 launch0.win.arr_inj c _ _ 8
  have hw9 : Pipeline.withArrays (cfgs 0).spec c (V0 m c) (fun w => (dats 0 c).arrAt w (cfgs 0).N) (Proc.devRef .tc main_v0_6)
      = (dats 0 c).arrAt 9 cfg0.N := Pipeline.withArrays_arr spec0 launch0.win.arr_inj c _ _ 9
  have hw10 : Pipeline.withArrays (cfgs 0).spec c (V0 m c) (fun w => (dats 0 c).arrAt w (cfgs 0).N) (Proc.devRef .tc main_v0_7)
      = (dats 0 c).arrAt 10 cfg0.N := Pipeline.withArrays_arr spec0 launch0.win.arr_inj c _ _ 10
  have hx3 : Pipeline.withArrays (cfgs 0).spec c (V0 m c) (fun w => (dats 0 c).arrAt w (cfgs 0).N) (Proc.devRef .tc main_arg3)
      = m ((c : Thread nD τ).loc main_arg3) :=
    (Pipeline.withArrays_of_ne _ c (V0 m c) _ main_arg3 (by decide)).trans rfl

  have h_main_v26 := congrFun hR (Proc.devRef .tc main_v26)
  have h_main_v27 := congrFun hR (Proc.devRef .tc main_v27)
  have h_main_v28 := congrFun hR (Proc.devRef .tc main_v28)
  have h_main_v29 := congrFun hR (Proc.devRef .tc main_v29)
  have h_main_v36 := congrFun hR (Proc.devRef .tc main_v36)
  have h_main_v39 := congrFun hR (Proc.devRef .tc main_v39)
  have h_main_v52 := congrFun hR (Proc.devRef .tc main_v52)
  have h_main_v64 := congrFun hR (Proc.devRef .tc main_v64)
  have h_main_v67 := congrFun hR (Proc.devRef .tc main_v67)
  have h_main_v80 := congrFun hR (Proc.devRef .tc main_v80)
  have h_main_v57 := congrFun hR (Proc.devRef .tc main_v57)
  have h_main_v85 := congrFun hR (Proc.devRef .tc main_v85)
  simp (disch := decide) only [StableHlo.after_cons, StableHlo.after_nil, Matrix.cons_val,
      StableHlo.nullary_result', StableHlo.unary_result', StableHlo.binary_result', StableHlo.ternary_result', StableHlo.quaternary_result', StableHlo.reshape_result', StableHlo.nary_result',
      StableHlo.nullary_result_ne', StableHlo.unary_result_ne', StableHlo.binary_result_ne', StableHlo.ternary_result_ne', StableHlo.quaternary_result_ne', StableHlo.reshape_result_ne',
      StableHlo.nary_result_ne', hw3, hw4, hw5, hw6, hw7, hw8, hw9, hw10, hx3]
    at h_main_v26 h_main_v27 h_main_v28 h_main_v29 h_main_v36 h_main_v39 h_main_v52 h_main_v64 h_main_v67 h_main_v80 h_main_v57 h_main_v85
  rw [← h_main_v26, ← h_main_v27, ← h_main_v28, ← h_main_v29, ← h_main_v36, ← h_main_v39, ← h_main_v52, ← h_main_v64, ← h_main_v67, ← h_main_v80, ← h_main_v57, ← h_main_v85]
  unfold Cert.KernelIdeal.TailFn.tail Cert.KernelIdeal.TailFn.post
  rfl

end Cert.KernelIdeal.Hand

end
-- ==== Proof.ScatterSum.lean ====
import proofs.«422984_j51135880626856_3_alg».proof.ReferenceIdeal
import proofs.«422984_j51135880626856_3_alg».proof.Proof.Gen.ReferenceIdeal
import proofs.«422984_j51135880626856_3_alg».proof.Proof.SpecSums
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.Scat

open Idealize.ShloMosaic Cert.ReferenceIdeal Cert.ReferenceIdeal.Gen Cert.Spec
open ValueIdx

variable (C : ℕ) {N : ℕ} (nw : BitVec 32) (cat : IVec S4096x2048 32) (hz : S_.BroadcastsInDim ⟨1, ![N]⟩ ![])
  (hs : Shape.ShapeCasts ⟨1, ![N]⟩ ⟨2, ![4096, C]⟩) (wf : ScatterDims.WF ⟨1, ![N]⟩ S8388608x1 S8388608 [] [0] [0] 1)
  (j : S8388608.Idx) (idx : IVec S8388608x1 32)

def pre : IVec S8388608 32 :=
  shapeCast _ (addi (broadcastInDim S4096x2048 ![0, 1] bcast_S4096x1_S4096x2048_0_1 (muli (broadcastInDim S4096x1 ![0] bcast_S4096_S4096x1_0 (iotaInDim S4096 32 0)) (broadcastInDim S4096x1 ![] bcast_S_S4096x1 (constantI S_ 32 (BitVec.ofNat 32 C))))) cat) shapeCasts_S4096x2048_S8388608

def flat : IVec S8388608x1 32 :=
  broadcastInDim S8388608x1 ![0] bcast_S8388608_S8388608x1_0 (select (cmpi .slt (pre C cat) (broadcastInDim S8388608 ![] bcast_S_S8388608 (constantI S_ 32 0#32))) (addi (pre C cat) (broadcastInDim S8388608 ![] bcast_S_S8388608 (constantI S_ 32 nw))) (pre C cat))

def scat (d : ScatterDims ⟨1, ![N]⟩ S8388608x1 S8388608) (upd : FVec Ideal S8388608 .f32) : FVec Ideal ⟨2, ![4096, C]⟩ .f32 :=
  shapeCast _ (Host.scatterAdd d (broadcastInDim ⟨1, ![N]⟩ ![] hz (constant (F := Ideal) S_ .f32 0x00000000#32)) (flat C nw cat) upd) hs

def scat100 (upd : FVec Ideal S8388608 .f32) : FVec Ideal S4096x100 .f32 :=
  scat 100 409600#32 cat bcast_S_S409600 shapeCasts_S409600_S4096x100 scatter_S409600_S8388608x1_S8388608_n_0_0_1 upd

def scat50 (upd : FVec Ideal S8388608 .f32) : FVec Ideal S4096x50 .f32 :=
  scat 50 204800#32 cat bcast_S_S204800 shapeCasts_S204800_S4096x50 scatter_S204800_S8388608x1_S8388608_n_0_0_1 upd

abbrev rs : S4096x2048.Idx := Shape.reshapeEquiv shapeCasts_S4096x2048_S8388608 j

theorem scatterAdd_apply {s si su : Shape} (d : ScatterDims s si su) {w : Nat} (x : FVec Ideal s .f32) (idx : IVec si w)
    (upd : FVec Ideal su .f32) (k : s.Idx) :
    Host.scatterAdd d x idx upd k = x k + ∑ j ∈ Finset.univ.filter (fun j => d.resultIdx? j idx = some k), upd j := rfl

-- the scatter record of a one-axis scatter into N cells, one index word per update
abbrev dims : ScatterDims ⟨1, ![N]⟩ S8388608x1 S8388608 := ⟨[], [0], [0], 1, wf⟩

-- start plus window coordinate on the one operand axis is the update's index word, read signed
theorem land_eq (a : Fin 1) : (dims wf).start j idx a + ((dims wf).window j a : ℤ) = (idx (ix2 (j 0) 0)).toInt := by
  match a with
  | ⟨0, _⟩ =>
    unfold ScatterDims.start ScatterDims.window
    split
    · split
      · next ha => exact absurd (List.mem_singleton.2 rfl) (of_decide_eq_true (List.mem_filter.1 ha).2)
      · rw [Nat.cast_zero, add_zero]
        refine congrArg (fun z => (idx z).toInt) (funext fun b => ?_)
        match b with
        | ⟨0, _⟩ => rfl
        | ⟨1, _⟩ => rfl
    · next ha => exact absurd (List.mem_singleton.2 rfl) ha

-- update j lands on cell k exactly when its index word, read signed, is k
theorem resultIdx_eq_some_iff (k : Fin N) :
    (dims wf).resultIdx? j idx = some (ix1 k) ↔ (idx (ix2 (j 0) 0)).toInt = (k.val : ℤ) := by
  have hk := k.isLt
  unfold ScatterDims.resultIdx?
  simp only [land_eq]
  split
  · next h =>
    have h0 : (0 : ℤ) ≤ _ ∧ _ < (N : ℤ) := h 0
    rw [Option.some.injEq]
    constructor
    · intro e
      have e0 : Int.toNat _ = k.val := congrArg (fun f => (f 0).val) e
      omega
    · intro e
      exact funext (Fin.forall_fin_one.2 (Fin.ext (by show Int.toNat _ = k.val; omega)))
  · next h =>
    exact ⟨nofun, fun e => absurd (Fin.forall_fin_one.2 (by show (0 : ℤ) ≤ _ ∧ _ < (N : ℤ); omega)) h⟩

theorem word_lt (c : BitVec 32) (C : ℕ) (hC : C ≤ 100) (h : 0 ≤ c.toInt ∧ c.toInt < (C : ℤ)) : c.toNat < C := by
  rw [BitVec.toInt_eq_toNat_cond] at h
  have := c.isLt
  split at h <;> omega

-- for b < 4096 and a label below C ≤ 100, b * C + label does not wrap and stays below 2 ^ 31
theorem flat_word (C b : ℕ) (hb : b < 4096) (hC : C ≤ 100) (c : BitVec 32) (hc : c.toNat < C) :
    (BitVec.ofNat 32 b * BitVec.ofNat 32 C + c).toNat = b * C + c.toNat ∧ b * C + c.toNat < 2 ^ 31 := by
  have hp : b * C ≤ 4095 * 100 := Nat.mul_le_mul (by omega) hC
  refine ⟨?_, by omega⟩
  rw [BitVec.toNat_add, BitVec.toNat_mul, BitVec.toNat_ofNat, BitVec.toNat_ofNat]
  rw [Nat.mod_eq_of_lt (show b < 2 ^ 32 by omega), Nat.mod_eq_of_lt (show C < 2 ^ 32 by omega)]
  rw [Nat.mod_eq_of_lt (show b * C < 2 ^ 32 by omega)]
  exact Nat.mod_eq_of_lt (by omega)

theorem toInt_of_small (x : BitVec 32) (hx : x.toNat < 2 ^ 31) : x.toInt = (x.toNat : ℤ) := by
  rw [BitVec.toInt_eq_toNat_cond]; split <;> omega

theorem select_nonneg (x y : BitVec 32) (hx : x.toNat < 2 ^ 31) :
    Scalar.select (IntOp.cmpi .slt x 0#32) y x = x := by
  have h : x.slt 0#32 = false := by
    rw [BitVec.slt, toInt_of_small x hx]; simp
  simp [Scalar.select, IntOp.cmpi, h]

-- summing over flat positions the terms of row b with label q is catSum
theorem sum_rs (g : S4096x2048.Idx → EReal) (b : Fin 4096) (q : ℕ) :
    (∑ j : S8388608.Idx, if ((rs j) 0).val = b.val ∧ (cat (rs j)).toNat = q then g (rs j) else 0) = catSum cat g b q := by
  refine (Equiv.sum_comp (Shape.reshapeEquiv shapeCasts_S4096x2048_S8388608)
    (fun i : S4096x2048.Idx => if (i 0).val = b.val ∧ (cat i).toNat = q then g i else 0)).trans ?_
  rw [sum_idx2, Fintype.sum_eq_single b fun a hab => Finset.sum_eq_zero fun t _ => if_neg fun hh => hab (Fin.ext hh.1)]
  exact Finset.sum_congr rfl fun t _ => if_congr (and_iff_right rfl) rfl rfl

theorem cell_lt {N C : ℕ} (hN : N = 4096 * C) (b : Fin 4096) (q : Fin C) : b.val * C + q.val < N := by
  have := Nat.mul_le_mul_right C (show b.val ≤ 4095 by omega)
  omega

-- quotient and remainder by C are unique
theorem cell_inj {C r c b q : ℕ} (hc : c < C) (hq : q < C) (e : r * C + c = b * C + q) : r = b ∧ c = q := by
  have hC : 0 < C := by omega
  have h1 := (Nat.div_mod_unique hC).2 ⟨(by rw [Nat.mul_comm, Nat.add_comm]; exact e : c + C * r = b * C + q), hc⟩
  have h2 := (Nat.div_mod_unique hC).2 ⟨(by rw [Nat.mul_comm, Nat.add_comm] : q + C * b = b * C + q), hq⟩
  exact ⟨h1.1.symm.trans h2.1, h1.2.symm.trans h2.2⟩

section Cells
variable {C} (hC : C ≤ 100) (hN : N = 4096 * C) (h : InRange C cat) (b : Fin 4096) (q : Fin C)
include hC h

-- with labels in range the flat index is b * C + label: no wrap, never negative, so the select keeps it
theorem flat_toInt : (flat C nw cat (ix2 (j 0) 0)).toInt = ((((rs j) 0).val * C + (cat (rs j)).toNat : ℕ) : ℤ) := by
  have hw : (pre C cat j).toNat = ((rs j) 0).val * C + (cat (rs j)).toNat ∧ _ :=
    flat_word C _ (idx2_lt0 (rs j)) hC _ (word_lt _ C hC (h (rs j)))
  have hsel : flat C nw cat (ix2 (j 0) 0) = pre C cat j :=
    (broadcastInDim_apply (s := S8388608) (t := S8388608x1) ![0] bcast_S8388608_S8388608x1_0 _ (ix2 (j 0) 0) j
      (Fin.forall_fin_one.2 (if_neg (by show ¬ ((8388608 : ℕ) = 1); decide)).symm)).trans (select_nonneg _ _ (hw.1 ▸ hw.2))
  rw [hsel, toInt_of_small _ (hw.1 ▸ hw.2), hw.1]

include hN

-- update j lands on cell (b, q) exactly when it is in row b and its label is q
theorem lands : (dims wf).resultIdx? j (flat C nw cat) = some (ix1 ⟨b.val * C + q.val, cell_lt hN b q⟩)
      ↔ ((rs j) 0).val = b.val ∧ (cat (rs j)).toNat = q.val := by
  rw [resultIdx_eq_some_iff, flat_toInt nw cat j hC h, Nat.cast_inj]
  exact ⟨cell_inj (word_lt _ C hC (h (rs j))) q.isLt, fun ⟨e1, e2⟩ => by rw [e1, e2]⟩

-- a cell of the scatter-add into zeros is the sum of the updates of its row that carry its label
theorem scat_sum (upd : FVec Ideal S8388608 .f32) (v : S4096x2048.Idx → EReal) (hv : ∀ j, upd j = v (rs j)) :
    scat C nw cat hz hs (dims wf) upd (ix2 b q) = catSum cat v b q.val := by
  unfold scat
  rw [shapeCast_apply _ hs (ix2 b q) (ix1 ⟨b.val * C + q.val, cell_lt hN b q⟩)
    (by rw [Shape.rowMajor_val_one, Shape.rowMajor_val_two]; rfl)]
  refine (scatterAdd_apply _ _ _ _ _).trans ?_
  rw [show (broadcastInDim _ ![] hz (constant (F := Ideal) S_ .f32 0x00000000#32)) _ = (0 : EReal) from Ideal.ofBits_zero_f32,
    zero_add, Finset.sum_filter, ← sum_rs cat v b q.val]
  exact Finset.sum_congr rfl fun j _ => if_congr (lands nw cat wf j hC hN h b q) (hv j) rfl

end Cells

theorem scat100_apply (cat : IVec S4096x2048 32) (h : InRange 100 cat) (v : FVec Ideal S4096x2048 .f32) (b : Fin 4096) (q : Fin 100) :
    scat100 cat (shapeCast _ v shapeCasts_S4096x2048_S8388608) (ix2 b q) = catSum cat v b q.val :=
  scat_sum _ cat _ _ _ le_rfl rfl h b q _ v fun _ => rfl

theorem scat100_ones_apply (cat : IVec S4096x2048 32) (h : InRange 100 cat) (b : Fin 4096) (q : Fin 100) :
    scat100 cat (broadcastInDim S8388608 ![] bcast_S_S8388608 (constant (F := Ideal) S_ .f32 0x3F800000#32)) (ix2 b q)
      = catSum cat (fun _ => (1 : EReal)) b q.val :=
  scat_sum _ cat _ _ _ le_rfl rfl h b q _ _ fun _ => Ideal.ofBits_one_f32

theorem scat50_apply (cat : IVec S4096x2048 32) (h : InRange 50 cat) (v : FVec Ideal S4096x2048 .f32) (b : Fin 4096) (q : Fin 50) :
    scat50 cat (shapeCast _ v shapeCasts_S4096x2048_S8388608) (ix2 b q) = catSum cat v b q.val :=
  scat_sum _ cat _ _ _ (by omega) rfl h b q _ v fun _ => rfl

theorem scat50_ones_apply (cat : IVec S4096x2048 32) (h : InRange 50 cat) (b : Fin 4096) (q : Fin 50) :
    scat50 cat (broadcastInDim S8388608 ![] bcast_S_S8388608 (constant (F := Ideal) S_ .f32 0x3F800000#32)) (ix2 b q)
      = catSum cat (fun _ => (1 : EReal)) b q.val :=
  scat_sum _ cat _ _ _ (by omega) rfl h b q _ _ fun _ => Ideal.ofBits_one_f32

end Cert.ReferenceIdeal.Scat
end
-- ==== Proof.RefTail.lean ====
import proofs.«422984_j51135880626856_3_alg».proof.Proof.RefRun
import proofs.«422984_j51135880626856_3_alg».proof.Proof.ScatterSum
import proofs.«422984_j51135880626856_3_alg».proof.Proof.TailFn

noncomputable section

namespace Cert.ReferenceIdeal.RefTail

open Cert.ReferenceIdeal Cert.ReferenceIdeal.Gen Idealize.ShloMosaic Idealize.ShloMosaic.TcCoe Idealize.SL.Sem Idealize.ShloMosaic.StableHlo

set_option maxRecDepth 8192 in
theorem ref_post (m : (ℓ : Loc nD τ sig) → Buf (Elt Ideal) ℓ) (c : Dev nD) :
    Cert.ReferenceIdeal.Value.res_main_v152 (F := Ideal) m c
      = Cert.KernelIdeal.TailFn.post (F := Ideal) (sitofp (F := Ideal) .f32 (m ((c.tc : Thread nD τ).loc main_arg3)))
          (Host.reduceAdd (F := Ideal) (m ((c.tc : Thread nD τ).loc main_arg0)) (constant (F := Ideal) S_ .f32 0x00000000#32) reducesTo_S4096x2048_S4096_d1 h_S_)
          (Host.reduceAdd (F := Ideal) (mulf (m ((c.tc : Thread nD τ).loc main_arg0)) (m ((c.tc : Thread nD τ).loc main_arg0))) (constant (F := Ideal) S_ .f32 0x00000000#32) reducesTo_S4096x2048_S4096_d1 h_S_)
          (Scat.scat100 (m ((c.tc : Thread nD τ).loc main_arg1)) (broadcastInDim S8388608 ![] bcast_S_S8388608 (constant (F := Ideal) S_ .f32 0x3F800000#32)))
          (Scat.scat100 (m ((c.tc : Thread nD τ).loc main_arg1)) (shapeCast _ (m ((c.tc : Thread nD τ).loc main_arg0)) shapeCasts_S4096x2048_S8388608))
          (Scat.scat100 (m ((c.tc : Thread nD τ).loc main_arg1)) (shapeCast _ (mulf (m ((c.tc : Thread nD τ).loc main_arg0)) (m ((c.tc : Thread nD τ).loc main_arg0))) shapeCasts_S4096x2048_S8388608))
          (Scat.scat50 (m ((c.tc : Thread nD τ).loc main_arg2)) (broadcastInDim S8388608 ![] bcast_S_S8388608 (constant (F := Ideal) S_ .f32 0x3F800000#32)))
          (Scat.scat50 (m ((c.tc : Thread nD τ).loc main_arg2)) (shapeCast _ (m ((c.tc : Thread nD τ).loc main_arg0)) shapeCasts_S4096x2048_S8388608))
          (Scat.scat50 (m ((c.tc : Thread nD τ).loc main_arg2)) (shapeCast _ (mulf (m ((c.tc : Thread nD τ).loc main_arg0)) (m ((c.tc : Thread nD τ).loc main_arg0))) shapeCasts_S4096x2048_S8388608)) := by
  unfold Cert.ReferenceIdeal.Value.res_main_v152 Cert.KernelIdeal.TailFn.post
  rfl

end Cert.ReferenceIdeal.RefTail

end
-- ==== Proof.RefRowSum.lean ====
import proofs.«422984_j51135880626856_3_alg».proof.ReferenceIdeal
import proofs.«422984_j51135880626856_3_alg».proof.Proof.Gen.ReferenceIdeal
import proofs.«422984_j51135880626856_3_alg».proof.Proof.SpecSums
import Idealize.ShloMosaic.PureOps.Ideal.Laws

noncomputable section

namespace Cert.ReferenceIdeal.RowSum

open Cert.ReferenceIdeal Cert.ReferenceIdeal.Gen Idealize.ShloMosaic

theorem reduceAdd_row (x : FVec Ideal S4096x2048 .f32) (b : Fin 4096) :
    (Host.reduceAdd (F := Ideal) x (constant (F := Ideal) S_ .f32 0x00000000#32) reducesTo_S4096x2048_S4096_d1 h_S_) (ValueIdx.ix1 b)
      = Cert.Spec.rowSum x b := by
  simp only [Host.reduceAdd, Ideal.hostReduceAdd_def]
  rw [Ideal.hostReduceAdd_single reducesTo_S4096x2048_S4096_d1 (by decide)]
  refine (congrArg (· + _) (Ideal.ofBits_zero_f32 : (constant (F := Ideal) S_ .f32 0x00000000#32) (Shape.Idx.first h_S_) = 0)).trans ?_
  rw [zero_add]
  unfold Cert.Spec.rowSum
  exact Finset.sum_congr rfl fun k _ => congrArg x (funext fun a => match a with | ⟨0, _⟩ => rfl | ⟨1, _⟩ => rfl)

end Cert.ReferenceIdeal.RowSum

end
-- ==== Proof.RefFns.lean ====
import proofs.«422984_j51135880626856_3_alg».proof.Proof.ScatterSum
import proofs.«422984_j51135880626856_3_alg».proof.Proof.RefRowSum
import proofs.«422984_j51135880626856_3_alg».proof.Proof.Bridge

noncomputable section

namespace Cert.ReferenceIdeal.RefFns

open Idealize.ShloMosaic Cert.ReferenceIdeal Cert.ReferenceIdeal.Gen Cert.ReferenceIdeal.Scat Cert.ReferenceIdeal.RowSum
open Cert.Bridge Cert.Spec
open ValueIdx

theorem mulf_self (x0 : FVec Ideal S4096x2048 .f32) : mulf x0 x0 = Bridge.sq x0 := rfl

theorem s_fn (x0 : FVec Ideal S4096x2048 .f32) :
    Host.reduceAdd (F := Ideal) x0 (constant (F := Ideal) S_ .f32 0x00000000#32) reducesTo_S4096x2048_S4096_d1 h_S_
      = fun i => rowSum x0 (i 0) :=
  funext fun i => (congrArg _ (eq_ix1 i)).trans (reduceAdd_row x0 (i 0))

theorem ss_fn (x0 : FVec Ideal S4096x2048 .f32) :
    Host.reduceAdd (F := Ideal) (mulf x0 x0) (constant (F := Ideal) S_ .f32 0x00000000#32) reducesTo_S4096x2048_S4096_d1 h_S_
      = fun i => rowSum (Bridge.sq x0) (i 0) := by
  rw [mulf_self]
  exact funext fun i => (congrArg _ (eq_ix1 i)).trans (reduceAdd_row (Bridge.sq x0) (i 0))

theorem cm_fn (x1 : IVec S4096x2048 32) (h : InRange 100 x1) :
    scat100 x1 (broadcastInDim S8388608 ![] bcast_S_S8388608 (constant (F := Ideal) S_ .f32 0x3F800000#32))
      = fun i => catSum x1 ones (i 0) (i 1).val :=
  funext fun i => (congrArg _ (eq_ix2 i)).trans (scat100_ones_apply x1 h (i 0) (i 1))

theorem sm_fn (x0 : FVec Ideal S4096x2048 .f32) (x1 : IVec S4096x2048 32) (h : InRange 100 x1) :
    scat100 x1 (shapeCast _ x0 shapeCasts_S4096x2048_S8388608) = fun i => catSum x1 x0 (i 0) (i 1).val :=
  funext fun i => (congrArg _ (eq_ix2 i)).trans (scat100_apply x1 h x0 (i 0) (i 1))

theorem qm_fn (x0 : FVec Ideal S4096x2048 .f32) (x1 : IVec S4096x2048 32) (h : InRange 100 x1) :
    scat100 x1 (shapeCast _ (mulf x0 x0) shapeCasts_S4096x2048_S8388608) = fun i => catSum x1 (Bridge.sq x0) (i 0) (i 1).val := by
  rw [mulf_self]
  exact funext fun i => (congrArg _ (eq_ix2 i)).trans (scat100_apply x1 h (Bridge.sq x0) (i 0) (i 1))

theorem ct_fn (x2 : IVec S4096x2048 32) (h : InRange 50 x2) :
    scat50 x2 (broadcastInDim S8388608 ![] bcast_S_S8388608 (constant (F := Ideal) S_ .f32 0x3F800000#32))
      = fun i => catSum x2 ones (i 0) (i 1).val :=
  funext fun i => (congrArg _ (eq_ix2 i)).trans (scat50_ones_apply x2 h (i 0) (i 1))

theorem st_fn (x0 : FVec Ideal S4096x2048 .f32) (x2 : IVec S4096x2048 32) (h : InRange 50 x2) :
    scat50 x2 (shapeCast _ x0 shapeCasts_S4096x2048_S8388608) = fun i => catSum x2 x0 (i 0) (i 1).val :=
  funext fun i => (congrArg _ (eq_ix2 i)).trans (scat50_apply x2 h x0 (i 0) (i 1))

theorem qt_fn (x0 : FVec Ideal S4096x2048 .f32) (x2 : IVec S4096x2048 32) (h : InRange 50 x2) :
    scat50 x2 (shapeCast _ (mulf x0 x0) shapeCasts_S4096x2048_S8388608) = fun i => catSum x2 (Bridge.sq x0) (i 0) (i 1).val := by
  rw [mulf_self]
  exact funext fun i => (congrArg _ (eq_ix2 i)).trans (scat50_apply x2 h (Bridge.sq x0) (i 0) (i 1))

end Cert.ReferenceIdeal.RefFns

end
-- ==== Proof.PreRange.lean ====
import proofs.«422984_j51135880626856_3_alg».proof.Pre_finite_inputs
import proofs.«422984_j51135880626856_3_alg».proof.Proof.Gen.Pre_finite_inputs
import proofs.«422984_j51135880626856_3_alg».proof.Proof.SpecSums
import Idealize.ShloMosaic.Lib.StableHlo.Predicate
import Idealize.ShloMosaic.Lib.ReduceAll
import Idealize.ShloMosaic.Lib.Affine
import Idealize.ShloMosaic.Lib.ValueIdx
import Idealize.ShloMosaic.PureOps.Ideal

noncomputable section

namespace Cert.PreRange

open Idealize.ShloMosaic Cert.Spec
open Cert.Pre_finite_inputs (S4096x2048 S4096 S_)

instance subsingleton_scalar : Subsingleton S_.Idx := ⟨fun a b => funext fun d => d.elim0⟩

-- Each "for every index" of the precondition is a reduction by "and" that came out 1, so every element's bit is 1.
theorem range_of_pre (x0 : FVec Ideal S4096x2048 .f32) (x1 x2 : IVec S4096x2048 32) (x3 : IVec S4096 32)
    (h : Cert.Pre_finite_inputs.fn (F := Ideal) x0 x1 x2 x3 = fun _ => 1#1) : InRange 100 x1 ∧ InRange 50 x2 := by
  have h0 := congrFun h ValueIdx.ix0
  dsimp only [Cert.Pre_finite_inputs.fn, Cert.Pre_finite_inputs.fn_part1] at h0
  obtain ⟨hab, hc⟩ := IntOp.andi_eq_one.1 h0
  obtain ⟨-, hb⟩ := IntOp.andi_eq_one.1 hab
  have z0 : (0#32 : BitVec 32).toInt = 0 := by decide
  have z100 : (100#32 : BitVec 32).toInt = 100 := by decide
  have z50 : (50#32 : BitVec 32).toInt = 50 := by decide
  refine ⟨fun i => ?_, fun i => ?_⟩
  · have e := Host.reduce_andi_all _ _ _ _ _ hb i
    obtain ⟨e1, e2⟩ := IntOp.andi_eq_one.1 e
    have e1' : (0#32 : BitVec 32).toInt ≤ (x1 i).toInt := IntOp.cmpi_sge.1 e1
    have e2' : (x1 i).toInt < (100#32 : BitVec 32).toInt := IntOp.cmpi_slt.1 e2
    rw [z0] at e1'; rw [z100] at e2'
    exact ⟨e1', e2'⟩
  · have e := Host.reduce_andi_all _ _ _ _ _ hc i
    obtain ⟨e1, e2⟩ := IntOp.andi_eq_one.1 e
    have e1' : (0#32 : BitVec 32).toInt ≤ (x2 i).toInt := IntOp.cmpi_sge.1 e1
    have e2' : (x2 i).toInt < (50#32 : BitVec 32).toInt := IntOp.cmpi_slt.1 e2
    rw [z0] at e1'; rw [z50] at e2'
    exact ⟨e1', e2'⟩

end Cert.PreRange

end
-- ==== Proof.lean ====
import proofs.«422984_j51135880626856_3_alg».proof.Defs
import proofs.«422984_j51135880626856_3_alg».proof.Proof.KBFrame
import proofs.«422984_j51135880626856_3_alg».proof.Proof.KIFns
import proofs.«422984_j51135880626856_3_alg».proof.Proof.KITail
import proofs.«422984_j51135880626856_3_alg».proof.Proof.RefTail
import proofs.«422984_j51135880626856_3_alg».proof.Proof.RefFns
import proofs.«422984_j51135880626856_3_alg».proof.Proof.PreRange
import Idealize.ShloMosaic.Adequacy
import Idealize.ShloMosaic.Init

noncomputable section

namespace Cert.Proof

open Idealize.ShloMosaic Idealize.ShloMosaic.TcCoe Idealize.SL.Sem Cert.Spec

section Kernel
open Cert.KernelIdeal Cert.KernelIdeal.Gen Cert.KernelIdeal.Hand

theorem kernel_G (m : (ℓ : Loc nD τ sig) → Buf (Elt Ideal) ℓ) (c : Dev nD) :
    Pipeline.afterTail₀ cfgs (dats m) 0 (V0 m) tailOps c main_v86
      = Cert.Bridge.G (m ((c : Thread nD τ).loc main_arg0)) (m ((c : Thread nD τ).loc main_arg1))
          (m ((c : Thread nD τ).loc main_arg2)) (m ((c : Thread nD τ).loc main_arg3)) := by
  rw [tail_eq m (dats m) c]
  unfold Cert.KernelIdeal.TailFn.tail Cert.Bridge.G
  rw [s_fn m c, ss_fn m c, cm_fn m c, sm_fn m c, qm_fn m c, ct_fn m c, st_fn m c, qt_fn m c]

end Kernel

section Reference
open Cert.ReferenceIdeal Cert.ReferenceIdeal.Gen

theorem ref_G (m : (ℓ : Loc nD τ sig) → Buf (Elt Ideal) ℓ) (c : Dev nD)
    (h1 : InRange 100 (m ((c.tc : Thread nD τ).loc main_arg1))) (h2 : InRange 50 (m ((c.tc : Thread nD τ).loc main_arg2))) :
    Cert.ReferenceIdeal.Value.res_main_v152 (F := Ideal) m c
      = Cert.Bridge.G (m ((c.tc : Thread nD τ).loc main_arg0)) (m ((c.tc : Thread nD τ).loc main_arg1))
          (m ((c.tc : Thread nD τ).loc main_arg2)) (m ((c.tc : Thread nD τ).loc main_arg3)) := by
  rw [Cert.ReferenceIdeal.RefTail.ref_post m c]
  unfold Cert.Bridge.G
  rw [Cert.ReferenceIdeal.RefFns.s_fn, Cert.ReferenceIdeal.RefFns.ss_fn,
    Cert.ReferenceIdeal.RefFns.cm_fn _ h1, Cert.ReferenceIdeal.RefFns.sm_fn _ _ h1, Cert.ReferenceIdeal.RefFns.qm_fn _ _ h1,
    Cert.ReferenceIdeal.RefFns.ct_fn _ h2, Cert.ReferenceIdeal.RefFns.st_fn _ _ h2, Cert.ReferenceIdeal.RefFns.qt_fn _ _ h2]

end Reference

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Bridge.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Hand.run_main (F := Ideal) m ρ)
    exact ⟨((h c).2 Cert.KernelIdeal.main_v86 (by decide)).trans (kernel_G m c),
      ((h c).1 0).trans (((Cert.KernelIdeal.Hand.dats m 0 c).arrAt_in 0 rfl _).trans (Cert.KernelIdeal.Hand.A_eq m c 0)),
      ((h c).1 1).trans (((Cert.KernelIdeal.Hand.dats m 0 c).arrAt_in 1 rfl _).trans (Cert.KernelIdeal.Hand.A_eq m c 1)),
      ((h c).1 2).trans (((Cert.KernelIdeal.Hand.dats m 0 c).arrAt_in 2 rfl _).trans (Cert.KernelIdeal.Hand.A_eq m c 2)),
      ((h c).2 Cert.KernelIdeal.main_arg3 (by decide)).trans (Cert.KernelIdeal.Hand.tail_arg3 m (Cert.KernelIdeal.Hand.dats m) c)⟩
  · refine (θ_run Cert.ReferenceIdeal.defs _ _).mono (fun r h c => ⟨(h c).1.trans ?_, (h c).2⟩)
      (Cert.ReferenceIdeal.Value.run (F := Ideal) m' ρ')
    have hr := Cert.PreRange.range_of_pre _ _ _ _ (hpre c)
    rw [ref_G m' c (by rw [(hagree c).2.1]; exact hr.1) (by rw [(hagree c).2.2.1]; exact hr.2),
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
